-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S64x16 : Shape := ⟨2, ![64, 16]⟩
abbrev S16 : Shape := ⟨1, ![16]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S2x64x64 .f32) (main_arg5 : FVec F S2x64 .f32) (main_arg6 : FVec F S64x16 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2x64x64 .f32 := Host.absf main_arg4
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S64x16 .f32 := Host.absf main_arg6
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg7 main_v33

def fn {F : FTy → Type} [FloatOps F] (main_arg0 : FVec F S16384x128 .f32) (main_arg1 : FVec F S16384x16384 .f32) (main_arg2 : FVec F S128x64 .f32) (main_arg3 : FVec F S64 .f32) (main_arg4 : FVec F S2x64x64 .f32) (main_arg5 : FVec F S2x64 .f32) (main_arg6 : FVec F S64x16 .f32) (main_arg7 : FVec F S16 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S16384x128 : Shape := ⟨2, ![16384, 128]⟩
abbrev S16384x16384 : Shape := ⟨2, ![16384, 16384]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S64x16 : Shape := ⟨2, ![64, 16]⟩
abbrev S16 : Shape := ⟨1, ![16]⟩
abbrev S1x64 : Shape := ⟨2, ![1, 64]⟩
abbrev S16384x64 : Shape := ⟨2, ![16384, 64]⟩
abbrev S4096x128 : Shape := ⟨2, ![4096, 128]⟩
abbrev S4096x64 : Shape := ⟨2, ![4096, 64]⟩
abbrev S2048x4096 : Shape := ⟨2, ![2048, 4096]⟩
abbrev S2048x64 : Shape := ⟨2, ![2048, 64]⟩
abbrev S1x64x64 : Shape := ⟨3, ![1, 64, 64]⟩
abbrev S64x64 : Shape := ⟨2, ![64, 64]⟩
abbrev S1x16 : Shape := ⟨2, ![1, 16]⟩
abbrev S16384x16 : Shape := ⟨2, ![16384, 16]⟩
abbrev S4096x16 : Shape := ⟨2, ![4096, 16]⟩
abbrev S2048x16 : Shape := ⟨2, ![2048, 16]⟩

abbrev nBuf : Space → Nat
  | .hbm => 29
  | .vmem => 52
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x64, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S64x16, .f32⟩
  | .hbm, ⟨7, _⟩ => ⟨S16, .f32⟩
  | .hbm, ⟨8, _⟩ => ⟨S16384x16384, .bf16⟩
  | .hbm, ⟨9, _⟩ => ⟨S1x64, .f32⟩
  | .hbm, ⟨10, _⟩ => ⟨S16384x64, .bf16⟩
  | .hbm, ⟨11, _⟩ => ⟨S16384x64, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S1x64x64, .f32⟩
  | .hbm, ⟨16, _⟩ => ⟨S64x64, .f32⟩
  | .hbm, ⟨17, _⟩ => ⟨S16384x64, .bf16⟩
  | .hbm, ⟨18, _⟩ => ⟨S16384x64, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S1x64x64, .f32⟩
  | .hbm, ⟨23, _⟩ => ⟨S64x64, .f32⟩
  | .hbm, ⟨24, _⟩ => ⟨S16384x64, .bf16⟩
  | .hbm, ⟨25, _⟩ => ⟨S16384x64, .f32⟩
  | .hbm, ⟨26, _⟩ => ⟨S1x16, .f32⟩
  | .hbm, ⟨27, _⟩ => ⟨S16384x16, .bf16⟩
  | .hbm, ⟨28, _⟩ => ⟨S16384x16, .f32⟩
  | .local _ .vmem, ⟨0, _⟩ => ⟨S4096x128, .f32⟩
  | .local _ .vmem, ⟨1, _⟩ => ⟨S4096x128, .f32⟩
  | .local _ .vmem, ⟨2, _⟩ => ⟨S128x64, .f32⟩
  | .local _ .vmem, ⟨3, _⟩ => ⟨S4096x64, .bf16⟩
  | .local _ .vmem, ⟨4, _⟩ => ⟨S4096x64, .bf16⟩
  | .local _ .vmem, ⟨5, _⟩ => ⟨S2048x4096, .bf16⟩
  | .local _ .vmem, ⟨6, _⟩ => ⟨S2048x4096, .bf16⟩
  | .local _ .vmem, ⟨7, _⟩ => ⟨S4096x64, .bf16⟩
  | .local _ .vmem, ⟨8, _⟩ => ⟨S4096x64, .bf16⟩
  | .local _ .vmem, ⟨9, _⟩ => ⟨S1x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S4096x64, .f32⟩
  | .local _ .vmem, ⟨14, _⟩ => ⟨S4096x64, .f32⟩
  | .local _ .vmem, ⟨15, _⟩ => ⟨S64x64, .f32⟩
  | .local _ .vmem, ⟨16, _⟩ => ⟨S4096x64, .bf16⟩
  | .local _ .vmem, ⟨17, _⟩ => ⟨S4096x64, .bf16⟩
  | .local _ .vmem, ⟨18, _⟩ => ⟨S2048x4096, .bf16⟩
  | .local _ .vmem, ⟨19, _⟩ => ⟨S2048x4096, .bf16⟩
  | .local _ .vmem, ⟨20, _⟩ => ⟨S4096x64, .bf16⟩
  | .local _ .vmem, ⟨21, _⟩ => ⟨S4096x64, .bf16⟩
  | .local _ .vmem, ⟨22, _⟩ => ⟨S1x64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S4096x64, .f32⟩
  | .local _ .vmem, ⟨27, _⟩ => ⟨S4096x64, .f32⟩
  | .local _ .vmem, ⟨28, _⟩ => ⟨S64x64, .f32⟩
  | .local _ .vmem, ⟨29, _⟩ => ⟨S4096x64, .bf16⟩
  | .local _ .vmem, ⟨30, _⟩ => ⟨S4096x64, .bf16⟩
  | .local _ .vmem, ⟨31, _⟩ => ⟨S2048x4096, .bf16⟩
  | .local _ .vmem, ⟨32, _⟩ => ⟨S2048x4096, .bf16⟩
  | .local _ .vmem, ⟨33, _⟩ => ⟨S4096x64, .bf16⟩
  | .local _ .vmem, ⟨34, _⟩ => ⟨S4096x64, .bf16⟩
  | .local _ .vmem, ⟨35, _⟩ => ⟨S1x64, .f32⟩
  | .local _ .vmem, ⟨36, _⟩ => ⟨S2048x64, .f32⟩
  | .local _ .vmem, ⟨37, _⟩ => ⟨S2048x64, .f32⟩
  | .local _ .vmem, ⟨38, _⟩ => ⟨S2048x64, .f32⟩
  | .local _ .vmem, ⟨39, _⟩ => ⟨S4096x64, .f32⟩
  | .local _ .vmem, ⟨40, _⟩ => ⟨S4096x64, .f32⟩
  | .local _ .vmem, ⟨41, _⟩ => ⟨S64x16, .f32⟩
  | .local _ .vmem, ⟨42, _⟩ => ⟨S4096x16, .bf16⟩
  | .local _ .vmem, ⟨43, _⟩ => ⟨S4096x16, .bf16⟩
  | .local _ .vmem, ⟨44, _⟩ => ⟨S2048x4096, .bf16⟩
  | .local _ .vmem, ⟨45, _⟩ => ⟨S2048x4096, .bf16⟩
  | .local _ .vmem, ⟨46, _⟩ => ⟨S4096x16, .bf16⟩
  | .local _ .vmem, ⟨47, _⟩ => ⟨S4096x16, .bf16⟩
  | .local _ .vmem, ⟨48, _⟩ => ⟨S1x16, .f32⟩
  | .local _ .vmem, ⟨49, _⟩ => ⟨S2048x16, .f32⟩
  | .local _ .vmem, ⟨50, _⟩ => ⟨S2048x16, .f32⟩
  | .local _ .vmem, ⟨51, _⟩ => ⟨S2048x16, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc5_scratch0 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg3_0 : Ref sig .tc := ⟨.vmem, 49, rfl⟩
abbrev cc7_stg3_1 : Ref sig .tc := ⟨.vmem, 50, rfl⟩
abbrev cc7_scratch0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4096x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![8, 4], ![false, false]⟩

def k5_cond2 (i : grid5.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S4096x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S2048x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4096x16 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![8, 4], ![false, false]⟩

def k7_cond2 (i : grid7.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2048x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S4096x16 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 1 → Memref sig .tc .vmem S1x16 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S2048x16 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

class Facts₀ : Prop where
  bitsLt_bf16_f32 : FTy.bits .bf16 < FTy.bits .f32
  shapeCasts_S64_S1x64 : S64.ShapeCasts S1x64
  inb_S4096x128_S4096x128_0_0 : ∀ a, (![0, 0] : Fin 2 → Nat) a + S4096x128.size a ≤ S4096x128.size a
  h_S4096x128 : 0 < S4096x128.numel
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  packedbf16_S4096x64_S4096x64_0_0 : (Rect.unit (s := S4096x64) ![0, 0] S4096x64.size inb_S4096x64_S4096x64_0_0).PackedRows (EltTy.packing .bf16)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  slices_S2x64_S1x64_0_0 : S2x64.Slices ![0, 0] S1x64
  shapeCasts_S1x64_S64 : S1x64.ShapeCasts S64
  slices_S2x64x64_S1x64x64_0_0_0 : S2x64x64.Slices ![0, 0, 0] S1x64x64
  shapeCasts_S1x64x64_S64x64 : S1x64x64.ShapeCasts S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x64_S1x64_1_0 : S2x64.Slices ![1, 0] S1x64
  slices_S2x64x64_S1x64x64_1_0_0 : S2x64x64.Slices ![1, 0, 0] S1x64x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S4096x16_S4096x16_0_0 : ∀ a, (![0, 0] : Fin 2 → Nat) a + S4096x16.size a ≤ S4096x16.size a
  h_S4096x16 : 0 < S4096x16.numel
  packedbf16_S4096x16_S4096x16_0_0 : (Rect.unit (s := S4096x16) ![0, 0] S4096x16.size inb_S4096x16_S4096x16_0_0).PackedRows (EltTy.packing .bf16)
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  shapeCasts_S4096x16_S4096x16 : S4096x16.ShapeCasts S4096x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  dot_S4096x128_S128x64_S4096x64_1_0_0_1_n_n_wf : DotDims.WF S4096x128 S128x64 S4096x64 [1] [0] [0] [1] [] []
  dot_S2048x4096_S4096x64_S2048x64_1_0_0_1_n_n_wf : DotDims.WF S2048x4096 S4096x64 S2048x64 [1] [0] [0] [1] [] []
  dot_S4096x64_S64x64_S4096x64_1_0_0_1_n_n_wf : DotDims.WF S4096x64 S64x64 S4096x64 [1] [0] [0] [1] [] []
  dot_S4096x64_S64x16_S4096x16_1_0_0_1_n_n_wf : DotDims.WF S4096x64 S64x16 S4096x16 [1] [0] [0] [1] [] []
  dot_S2048x4096_S4096x16_S2048x16_1_0_0_1_n_n_wf : DotDims.WF S2048x4096 S4096x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S16384x128.size a
  hwx0_0 : ∀ i : grid0.Coords, EltTy.bits .f32 = 32 ∨ (Rect.block (s := S16384x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S16384x64.size a
  hwx0_2 : ∀ i : grid0.Coords, EltTy.bits .bf16 = 32 ∨ (Rect.block (s := S16384x64) S4096x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S16384x16384.size a
  hwx1_0 : ∀ i : grid1.Coords, EltTy.bits .bf16 = 32 ∨ (Rect.block (s := S16384x16384) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S16384x64.size a
  hwx1_1 : ∀ i : grid1.Coords, EltTy.bits .bf16 = 32 ∨ (Rect.block (s := S16384x64) S4096x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S16384x64.size a
  hwx1_3 : ∀ i : grid1.Coords, EltTy.bits .f32 = 32 ∨ (Rect.block (s := S16384x64) S2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S16384x64.size a
  hwx2_0 : ∀ i : grid2.Coords, EltTy.bits .f32 = 32 ∨ (Rect.block (s := S16384x64) S4096x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x64.size a ≤ S16384x64.size a
  hwx2_2 : ∀ i : grid2.Coords, EltTy.bits .bf16 = 32 ∨ (Rect.block (s := S16384x64) S4096x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x4096.size a ≤ S16384x16384.size a
  hwx3_0 : ∀ i : grid3.Coords, EltTy.bits .bf16 = 32 ∨ (Rect.block (s := S16384x16384) S2048x4096.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S16384x64.size a
  hwx3_1 : ∀ i : grid3.Coords, EltTy.bits .bf16 = 32 ∨ (Rect.block (s := S16384x64) S4096x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x64.size a ≤ S16384x64.size a
  hwx3_3 : ∀ i : grid3.Coords, EltTy.bits .f32 = 32 ∨ (Rect.block (s := S16384x64) S2048x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S16384x64.size a
  hwx4_0 : ∀ i : grid4.Coords, EltTy.bits .f32 = 32 ∨ (Rect.block (s := S16384x64) S4096x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x64.size a ≤ S16384x64.size a
  hwx4_2 : ∀ i : grid4.Coords, EltTy.bits .bf16 = 32 ∨ (Rect.block (s := S16384x64) S4096x64.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x4096.size a ≤ S16384x16384.size a
  hwx5_0 : ∀ i : grid5.Coords, EltTy.bits .bf16 = 32 ∨ (Rect.block (s := S16384x16384) S2048x4096.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x64.size a ≤ S16384x64.size a
  hwx5_1 : ∀ i : grid5.Coords, EltTy.bits .bf16 = 32 ∨ (Rect.block (s := S16384x64) S4096x64.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x64.size a ≤ S16384x64.size a
  hwx5_3 : ∀ i : grid5.Coords, EltTy.bits .f32 = 32 ∨ (Rect.block (s := S16384x64) S2048x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x64.size a ≤ S16384x64.size a
  hwx6_0 : ∀ i : grid6.Coords, EltTy.bits .f32 = 32 ∨ (Rect.block (s := S16384x64) S4096x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x16.size a ≤ S64x16.size a
  hwx6_1 : ∀ i : grid6.Coords, EltTy.bits .f32 = 32 ∨ (Rect.block (s := S64x16) S64x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4096x16.size a ≤ S16384x16.size a
  hwx6_2 : ∀ i : grid6.Coords, EltTy.bits .bf16 = 32 ∨ (Rect.block (s := S16384x16) S4096x16.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x4096.size a ≤ S16384x16384.size a
  hwx7_0 : ∀ i : grid7.Coords, EltTy.bits .bf16 = 32 ∨ (Rect.block (s := S16384x16384) S2048x4096.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4096x16.size a ≤ S16384x16.size a
  hwx7_1 : ∀ i : grid7.Coords, EltTy.bits .bf16 = 32 ∨ (Rect.block (s := S16384x16) S4096x16.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x16.size a ≤ S1x16.size a
  hwx7_2 : ∀ i : grid7.Coords, EltTy.bits .f32 = 32 ∨ (Rect.block (s := S1x16) S1x16.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2048x16.size a ≤ S16384x16.size a
  hwx7_3 : ∀ i : grid7.Coords, EltTy.bits .f32 = 32 ∨ (Rect.block (s := S16384x16) S2048x16.size (cc7_transform_3 i) (hinb7_3 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S2048x4096_S4096x64_S2048x64_1_0_0_1_n_n : DotDims S2048x4096 S4096x64 S2048x64 where
  lhsContracting := [1]
  rhsContracting := [0]
  lhsNonContracting := [0]
  rhsNonContracting := [1]
  lhsBatch := []
  rhsBatch := []
  wf := dot_S2048x4096_S4096x64_S2048x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S2048x4096_S4096x16_S2048x16_1_0_0_1_n_n : DotDims S2048x4096 S4096x16 S2048x16 where
  lhsContracting := [1]
  rhsContracting := [0]
  lhsNonContracting := [0]
  rhsNonContracting := [1]
  lhsBatch := []
  rhsBatch := []
  wf := dot_S2048x4096_S4096x16_S2048x16_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2048x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v3) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S4096x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S2048x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S4096x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v10) S2048x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v10) S4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v16) S4096x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v0) S2048x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v16) S4096x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v13) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v17) S2048x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v17) S4096x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S64x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v19) S4096x16.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v0) S2048x4096.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v19) S4096x16.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v18) S1x16.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v20) S2048x16.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S64x16 : Shape := ⟨2, ![64, 16]⟩
abbrev S16 : Shape := ⟨1, ![16]⟩
abbrev S16384x64 : Shape := ⟨2, ![16384, 64]⟩
abbrev S1x64 : Shape := ⟨2, ![1, 64]⟩
abbrev S1x64x64 : Shape := ⟨3, ![1, 64, 64]⟩
abbrev S64x64 : Shape := ⟨2, ![64, 64]⟩
abbrev S16384x16 : Shape := ⟨2, ![16384, 16]⟩
abbrev S1x16 : Shape := ⟨2, ![1, 16]⟩

abbrev nBuf : Space → Nat
  | .hbm => 36
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x64, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S64x16, .f32⟩
  | .hbm, ⟨7, _⟩ => ⟨S16, .f32⟩
  | .hbm, ⟨8, _⟩ => ⟨S16384x64, .f32⟩
  | .hbm, ⟨9, _⟩ => ⟨S16384x64, .f32⟩
  | .hbm, ⟨10, _⟩ => ⟨S1x64, .f32⟩
  | .hbm, ⟨11, _⟩ => ⟨S16384x64, .f32⟩
  | .hbm, ⟨12, _⟩ => ⟨S16384x64, .f32⟩
  | .hbm, ⟨13, _⟩ => ⟨S1x64x64, .f32⟩
  | .hbm, ⟨14, _⟩ => ⟨S64x64, .f32⟩
  | .hbm, ⟨15, _⟩ => ⟨S1x64, .f32⟩
  | .hbm, ⟨16, _⟩ => ⟨S64, .f32⟩
  | .hbm, ⟨17, _⟩ => ⟨S16384x64, .f32⟩
  | .hbm, ⟨18, _⟩ => ⟨S16384x64, .f32⟩
  | .hbm, ⟨19, _⟩ => ⟨S1x64, .f32⟩
  | .hbm, ⟨20, _⟩ => ⟨S16384x64, .f32⟩
  | .hbm, ⟨21, _⟩ => ⟨S16384x64, .f32⟩
  | .hbm, ⟨22, _⟩ => ⟨S1x64x64, .f32⟩
  | .hbm, ⟨23, _⟩ => ⟨S64x64, .f32⟩
  | .hbm, ⟨24, _⟩ => ⟨S1x64, .f32⟩
  | .hbm, ⟨25, _⟩ => ⟨S64, .f32⟩
  | .hbm, ⟨26, _⟩ => ⟨S16384x64, .f32⟩
  | .hbm, ⟨27, _⟩ => ⟨S16384x64, .f32⟩
  | .hbm, ⟨28, _⟩ => ⟨S1x64, .f32⟩
  | .hbm, ⟨29, _⟩ => ⟨S16384x64, .f32⟩
  | .hbm, ⟨30, _⟩ => ⟨S16384x64, .f32⟩
  | .hbm, ⟨31, _⟩ => ⟨S16384x16, .f32⟩
  | .hbm, ⟨32, _⟩ => ⟨S16384x16, .f32⟩
  | .hbm, ⟨33, _⟩ => ⟨S1x16, .f32⟩
  | .hbm, ⟨34, _⟩ => ⟨S16384x16, .f32⟩
  | .hbm, ⟨35, _⟩ => ⟨S16384x16, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  dot_S16384x128_S128x64_S16384x64_1_0_0_1_n_n_wf : DotDims.WF S16384x128 S128x64 S16384x64 [1] [0] [0] [1] [] []
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []
  dot_S16384x64_S64x16_S16384x16_1_0_0_1_n_n_wf : DotDims.WF S16384x64 S64x16 S16384x16 [1] [0] [0] [1] [] []
  dot_S16384x16384_S16384x16_S16384x16_1_0_0_1_n_n_wf : DotDims.WF S16384x16384 S16384x16 S16384x16 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf
def dot_S16384x16384_S16384x16_S16384x16_1_0_0_1_n_n : DotDims S16384x16384 S16384x16 S16384x16 where
  lhsContracting := [1]
  rhsContracting := [0]
  lhsNonContracting := [0]
  rhsNonContracting := [1]
  lhsBatch := []
  rhsBatch := []
  wf := dot_S16384x16384_S16384x16_S16384x16_1_0_0_1_n_n_wf

class Facts : Prop extends Facts₀ where

variable [Facts]
-- ==== Proof.Kernel.Hw0.lean ====
import proofs.«137875_j10720238371126_1_alg».proof.Proof.Gen.Kernel.Launch
import proofs.«137875_j10720238371126_1_alg».proof.Proof.Gen.Kernel.Skeleton
import proofs.«137875_j10720238371126_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S4096x128 := Rect.unit (s := S4096x128) ![0, 0] S4096x128.size inb_S4096x128_S4096x128_0_0
abbrev rw0 : Rect S128x64 := Rect.unit (s := S128x64) ![0, 0] S128x64.size inb_S128x64_S128x64_0_0
abbrev ro0 : Rect S4096x64 := Rect.unit (s := S4096x64) ![0, 0] S4096x64.size inb_S4096x64_S4096x64_0_0

/-- The output block after the body: the product of the two loaded blocks, stored whole. -/
def out0_2 (x0 : Vec F S4096x128 .f32) (x1 : Vec F S128x64 .f32) : Vec F S4096x64 .bf16 :=
  View.canon [⟨ro0, k0_pay1 (View.ld x0 rx0) (View.ld x1 rw0)⟩]

theorem cover0_2 (p0 : Vec F S4096x64 .bf16) (y : S4096x64.Idx) :
    ∃ pc ∈ ([⟨ro0, p0⟩] : List (View.Piece (Elt F) S4096x64 .bf16)), y ∈ pc.1.set :=
  View.cover_of_tiled [⟨ro0, p0⟩] S4096x64.size (by rfl) y

/-- The body on whole blocks: the inputs keep their contents and the output block ends at their product. -/
theorem sound_kernel0 (c : Dev nD) (E : Set ℕ) (i : grid0.Coords) (arg1 : Memref sig .tc .vmem S4096x128 .f32) (harg1 : arg1.IsWhole)
    (arg2 : Memref sig .tc .vmem S128x64 .f32) (harg2 : arg2.IsWhole) (arg3 : Memref sig .tc .vmem S4096x64 .bf16) (harg3 : arg3.IsWhole)
    (x0 : Vec F S4096x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__hw_kernel i arg1 harg1 arg2 harg2 arg3 harg3) K := by
  simp only [cc0__hw_kernel_eq_skeleton]; unfold cc0__hw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe; ipureintro; rfl
  isplitl [H1]; · iexists f1; iframe; ipureintro; rfl
  iexists _; iframe; ipureintro
  exact View.read_writes_eq_canon _ _ _ (cover0_2 _)

/-- The region's data at the entry contents `V`: each point leaves its input blocks as read and the product in its output block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.Kernel.Hw2.lean ====
import proofs.«137875_j10720238371126_1_alg».proof.Proof.Gen.Kernel.Launch
import proofs.«137875_j10720238371126_1_alg».proof.Proof.Gen.Kernel.Skeleton
import proofs.«137875_j10720238371126_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev rx2 : Rect S4096x64 := Rect.unit (s := S4096x64) ![0, 0] S4096x64.size inb_S4096x64_S4096x64_0_0
abbrev rw2 : Rect S64x64 := Rect.unit (s := S64x64) ![0, 0] S64x64.size inb_S64x64_S64x64_0_0
abbrev ro2 : Rect S4096x64 := Rect.unit (s := S4096x64) ![0, 0] S4096x64.size inb_S4096x64_S4096x64_0_0

/-- The output block after the body: the product of the two loaded blocks, stored whole. -/
def out2_2 (x0 : Vec F S4096x64 .f32) (x1 : Vec F S64x64 .f32) : Vec F S4096x64 .bf16 :=
  View.canon [⟨ro2, k2_pay1 (View.ld x0 rx2) (View.ld x1 rw2)⟩]

theorem cover2_2 (p0 : Vec F S4096x64 .bf16) (y : S4096x64.Idx) :
    ∃ pc ∈ ([⟨ro2, p0⟩] : List (View.Piece (Elt F) S4096x64 .bf16)), y ∈ pc.1.set :=
  View.cover_of_tiled [⟨ro2, p0⟩] S4096x64.size (by rfl) y

/-- The body on whole blocks: the inputs keep their contents and the output block ends at their product. -/
theorem sound_kernel2 (c : Dev nD) (E : Set ℕ) (i : grid2.Coords) (arg1 : Memref sig .tc .vmem S4096x64 .f32) (harg1 : arg1.IsWhole)
    (arg2 : Memref sig .tc .vmem S64x64 .f32) (harg2 : arg2.IsWhole) (arg3 : Memref sig .tc .vmem S4096x64 .bf16) (harg3 : arg3.IsWhole)
    (x0 : Vec F S4096x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__hw_kernel i arg1 harg1 arg2 harg2 arg3 harg3) K := by
  simp only [cc2__hw_kernel_eq_skeleton]; unfold cc2__hw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe; ipureintro; rfl
  isplitl [H1]; · iexists f1; iframe; ipureintro; rfl
  iexists _; iframe; ipureintro
  exact View.read_writes_eq_canon _ _ _ (cover2_2 _)

/-- The region's data at the entry contents `V`: each point leaves its input blocks as read and the product in its output block. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.Kernel.Hw4.lean ====
import proofs.«137875_j10720238371126_1_alg».proof.Proof.Kernel.Hw2

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Regions 2 and 4 run one body. -/
theorem hw4_eq : cc4__hw_kernel (F := F) = cc2__hw_kernel := rfl

/-- The region's data at the entry contents `V`: each point leaves its input blocks as read and the product in its output block. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out2_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out2_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [hw4_eq]
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel2 c Set.univ _ _ _ _ _ _ _ (iblk4 V c 0 t) (iblk4 V c 1 t) _)
  iframe
  isplitl [H2]; · iexists _; iexact H2
  iintro ⟨H0, H1, H2⟩
  iframe

theorem body_obligation4 (c : Dev nD) : BodyObligation (dat4 (F := F) V c) (defs₀ (F := F)) Variants.none () Set.univ := fun t => by
  rw [bigSep_W4, bigSep_W4]
  exact sound_body4 V c t

end

end Cert.Kernel.Hand

end
-- ==== Proof.Kernel.Hw6.lean ====
import proofs.«137875_j10720238371126_1_alg».proof.Proof.Gen.Kernel.Launch
import proofs.«137875_j10720238371126_1_alg».proof.Proof.Gen.Kernel.Skeleton
import proofs.«137875_j10720238371126_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev rx6 : Rect S4096x64 := Rect.unit (s := S4096x64) ![0, 0] S4096x64.size inb_S4096x64_S4096x64_0_0
abbrev rw6 : Rect S64x16 := Rect.unit (s := S64x16) ![0, 0] S64x16.size inb_S64x16_S64x16_0_0
abbrev ro6 : Rect S4096x16 := Rect.unit (s := S4096x16) ![0, 0] S4096x16.size inb_S4096x16_S4096x16_0_0

/-- The output block after the body: the product of the two loaded blocks, stored whole. -/
def out6_2 (x0 : Vec F S4096x64 .f32) (x1 : Vec F S64x16 .f32) : Vec F S4096x16 .bf16 :=
  View.canon [⟨ro6, k6_pay1 (View.ld x0 rx6) (View.ld x1 rw6)⟩]

theorem cover6_2 (p0 : Vec F S4096x16 .bf16) (y : S4096x16.Idx) :
    ∃ pc ∈ ([⟨ro6, p0⟩] : List (View.Piece (Elt F) S4096x16 .bf16)), y ∈ pc.1.set :=
  View.cover_of_tiled [⟨ro6, p0⟩] S4096x16.size (by rfl) y

/-- The body on whole blocks: the inputs keep their contents and the output block ends at their product. -/
theorem sound_kernel6 (c : Dev nD) (E : Set ℕ) (i : grid6.Coords) (arg1 : Memref sig .tc .vmem S4096x64 .f32) (harg1 : arg1.IsWhole)
    (arg2 : Memref sig .tc .vmem S64x16 .f32) (harg2 : arg2.IsWhole) (arg3 : Memref sig .tc .vmem S4096x16 .bf16) (harg3 : arg3.IsWhole)
    (x0 : Vec F S4096x64 .f32) (x1 : Vec F S64x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__hw_kernel i arg1 harg1 arg2 harg2 arg3 harg3) K := by
  simp only [cc6__hw_kernel_eq_skeleton]; unfold cc6__hw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe; ipureintro; rfl
  isplitl [H1]; · iexists f1; iframe; ipureintro; rfl
  iexists _; iframe; ipureintro
  exact View.read_writes_eq_canon _ _ _ (cover6_2 _)

/-- The region's data at the entry contents `V`: each point leaves its input blocks as read and the product in its output block. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  iframe
  isplitl [H2]; · iexists _; iexact H2
  iintro ⟨H0, H1, H2⟩
  iframe

theorem body_obligation6 (c : Dev nD) : BodyObligation (dat6 (F := F) V c) (defs₀ (F := F)) Variants.none () Set.univ := fun t => by
  rw [bigSep_W6, bigSep_W6]
  exact sound_body6 V c t

end

end Cert.Kernel.Hand

end
-- ==== Proof.Kernel.AggBody1.lean ====
import proofs.«137875_j10720238371126_1_alg».proof.Proof.Gen.Kernel.Launch
import proofs.«137875_j10720238371126_1_alg».proof.Proof.Gen.Kernel.Skeleton
import proofs.«137875_j10720238371126_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

theorem hzero1 : (![0, 0] : Fin 2 → ℕ) = fun _ => 0 := by funext a; fin_cases a <;> rfl

theorem cover_head1 (w : Vec F S2048x64 .f32) (L : List (View.Piece (Elt F) S2048x64 .f32)) (y : S2048x64.Idx) :
    ∃ p ∈ ((⟨Rect.unit (s := S2048x64) ![0, 0] S2048x64.size inb_S2048x64_S2048x64_0_0, w⟩ : View.Piece (Elt F) S2048x64 .f32) :: L), y ∈ p.1.set :=
  ⟨_, List.mem_cons.mpr (Or.inl rfl), View.mem_set_unit_zero hzero1 inb_S2048x64_S2048x64_0_0 y⟩

abbrev condA1 (i : grid1.Coords) : Prop := (Scalar.cmpi .ne (Scalar.extui (Scalar.cmpi .eq (BitVec.ofNat 32 (i 1).val) 0#32)) 0#32) = 1#1
abbrev condB1 (i : grid1.Coords) : Prop := k1_cond2 i = 1#1

/-- The accumulator after a point: restarted from zero where `pA` holds, it gains the product of the point's two blocks. -/
abbrev acc1 (pA : Prop) [Decidable pA] (xs : Vec F S2048x64 .f32) (x0 : Vec F S2048x4096 .bf16) (x1 : Vec F S4096x64 .bf16) : Vec F S2048x64 .f32 :=
  k1_pay2 (if pA then k1_pay1 (F := F) else xs) x0 x1

/-- The body at one point, its two branch conditions read as `pA` (a first column block) and `pB` (a last one): the
    accumulator is updated, and where `pB` holds the output block becomes the accumulator plus the bias row. -/
theorem sound_kernel1 (c : Dev nD) (E : Set ℕ) (i : grid1.Coords)
    (arg2 : Memref sig .tc .vmem S2048x4096 .bf16) (harg2 : arg2.IsWhole) (arg3 : Memref sig .tc .vmem S4096x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (x0 : Vec F S2048x4096 .bf16) (x1 : Vec F S4096x64 .bf16) (xb : Vec F S1x64 .f32) (xo xs : Vec F S2048x64 .f32)
    (pA pB : Prop) [Decidable pA] [Decidable pB] (hA : pA ↔ condA1 i) (hB : pB ↔ condB1 i) (hAB : ¬(pA ∧ pB)) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare (if pB then k1_pay3 (acc1 pA xs x0 x1) xb else xo)
            ∗ owns (c : Thread nD τ) arg6 fullShare (acc1 pA xs x0 x1)) -∗ K ⟨⟩))
      ⊢ wp frame (wpE (defs₀ (F := F)) Variants.none c none) E (cc1__gcn_agg_kernel i arg2 harg2 arg3 harg3 arg4 harg4 arg5 harg5 arg6 harg6) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  by_cases hp0 : pA <;> by_cases hp1 : pB
  · exact (hAB ⟨hp0, hp1⟩).elim
  all_goals
    have hc0 := hp0; have hc1 := hp1
    rw [hA] at hc0; rw [hB] at hc1
    sl_exec (disch := first | exact hc0 | exact hc1)
    sl_step
    iapply Hk
    isplitl [H0]; · iexists f0; iframe; ipureintro; rfl
    isplitl [H1]; · iexists f1; iframe; ipureintro; rfl
    isplitl [H2]; · iexists f2; iframe; ipureintro; rfl
    isplitl [H3]
    · iexists _; iframe; ipureintro
      first
        | rw [if_neg hp1]
        | (rw [if_pos hp1]; unfold acc1
           first | rw [if_pos hp0] | rw [if_neg hp0]
           sl_unfold_run_names
           refine (View.read_writes_eq_canon _ _ _ (cover_head1 _ _)).trans ?_
           rw [View.canon_cons_unit_zero (S := S2048x64) hzero1]
           simp only [View.readAt_eq_ld, View.ld_unit_zero (S := S2048x4096) hzero1, View.ld_unit_zero (S := S4096x64) hzero1,
             View.ld_unit_zero (S := S2048x64) hzero1, View.ld_unit_zero (S := S1x64) hzero1, View.readCov_unit_zero (S := S2048x64) _ hzero1])
    iexists _; iframe; ipureintro
    unfold acc1
    first | rw [if_pos hp0] | rw [if_neg hp0]
    sl_unfold_run_names
    refine (View.read_writes_eq_canon _ _ _ (cover_head1 _ _)).trans ?_
    rw [View.canon_cons_unit_zero (S := S2048x64) hzero1]
    simp only [View.readAt_eq_ld, View.ld_unit_zero (S := S2048x4096) hzero1, View.ld_unit_zero (S := S4096x64) hzero1,
      View.ld_unit_zero (S := S2048x64) hzero1, View.readCov_unit_zero (S := S2048x64) _ hzero1]

end Cert.Kernel.Hand

end
-- ==== Proof.Kernel.Agg1.lean ====
import proofs.«137875_j10720238371126_1_alg».proof.Proof.Kernel.AggBody1

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

theorem hcondA1 : ∀ t : Fin cfg1.N, t.val % 4 = 0 ↔ condA1 (grid1.coords t) :=
  (by decide +kernel : ∀ t : Fin grid1.N, t.val % 4 = 0 ↔ condA1 (grid1.coords t))
theorem hcondB1 : ∀ t : Fin cfg1.N, t.val % 4 = 3 ↔ condB1 (grid1.coords t) :=
  (by decide +kernel : ∀ t : Fin grid1.N, t.val % 4 = 3 ↔ condB1 (grid1.coords t))

theorem idleAt1_3 : ∀ t : Fin cfg1.N, ¬ t.val % 4 = 3 → cfg1.idle 3 (grid1.coords t) = true := by decide +kernel
theorem noFlush1_3 : ∀ t : Fin cfg1.N, ¬ t.val % 4 = 3 → (cfg1.win 3).flush t = false := by decide +kernel
theorem liveAt1_3 : ∀ t : Fin cfg1.N, t.val % 4 = 3 → cfg1.idle 3 (grid1.coords t) = false := by decide +kernel

abbrev scM1 : Memref sig .tc .vmem S2048x64 .f32 := Memref.whole cc1_scratch0

section
variable (V : (c : Dev nD) → (b : Ref sig .tc) → Buf (Elt F) ((c : Thread nD τ).loc b))

/-- The accumulator after point `n`: at a first column block zero plus the point's product, else what the point before left plus the product. -/
def accAt1 (c : Dev nD) : (n : ℕ) → n < cfg1.N → Vec F S2048x64 .f32
  | 0, hn => k1_pay2 (k1_pay1 (F := F)) (iblk1 V c 0 ⟨0, hn⟩) (iblk1 V c 1 ⟨0, hn⟩)
  | n + 1, hn =>
    if (n + 1) % 4 = 0 then k1_pay2 (k1_pay1 (F := F)) (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

theorem accAt1_A (c : Dev nD) (t : Fin cfg1.N) (h : t.val % 4 = 0) :
    accAt1 V c t.val t.isLt = k1_pay2 (k1_pay1 (F := F)) (iblk1 V c 0 t) (iblk1 V c 1 t) := by
  obtain ⟨n, hn⟩ := t
  cases n with
  | zero => rfl
  | succ n => exact if_pos h

theorem accAt1_B (c : Dev nD) (t : Fin cfg1.N) (h : ¬ t.val % 4 = 0) :
    accAt1 V c t.val t.isLt
      = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scM1, owns_whole]; try rfl

/-- Between points the scratch holds the accumulator the point before left (before the first point, anything). -/
def PhiS1 (c : Dev nD) (n : ℕ) (hn : n ≤ cfg1.N) : sProp 𝕄 :=
  iprop(∃ xs, ⌜(h : n ≠ 0) → xs = accAt1 V c (n - 1) (by omega)⌝ ∗ owns (c : Thread nD τ) scM1 fullShare xs
    ∗ Pipeline.scopedRestBut (Ix := Unit) (Name := ℕ) (U := UR sig nD τ) (Lvl := ℕ) (Val := Elt F) spec1 c [cc1_scratch0]
    ∗ (∃ r, prngReg c r))

/-- The region's data at the entry contents `V`: the output block of a last column block is the accumulator plus the bias row. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- One step of the body is one step of the accumulator. -/
theorem acc1_eq (c : Dev nD) (t : Fin cfg1.N) (xs : Vec F S2048x64 .f32)
    (hxs : (h : t.val ≠ 0) → xs = accAt1 V c (t.val - 1) (Nat.lt_of_le_of_lt (Nat.sub_le _ _) t.isLt)) :
    acc1 (t.val % 4 = 0) xs (iblk1 V c 0 t) (iblk1 V c 1 t) = accAt1 V c t.val t.isLt := by
  unfold acc1
  by_cases h0 : t.val % 4 = 0
  · rw [if_pos h0, accAt1_A V c t h0]
  · rw [if_neg h0, accAt1_B V c t h0, hxs fun e => h0 (by rw [e])]

/-- The output block is written at a last column block and left as found elsewhere. -/
theorem leaves1_3 (c : Dev nD) (t : Fin cfg1.N) (d) :
    owns (c : Thread nD τ) (st1_3 t) fullShare
        (if t.val % 4 = 3 then k1_pay3 (accAt1 V c t.val t.isLt) (iblk1 V c 2 t) else (dat1 V c).before 3 t d)
      ⊢ (dat1 V c).leavesExact 3 t := by
  by_cases h3 : t.val % 4 = 3
  · rw [if_pos h3]; unfold Dat.leavesExact; rw [liveAt1_3 t h3, after1_3]
  · rw [if_neg h3, Dat.leavesExact_idle (dat1 V c) 3 t (idleAt1_3 t h3) (noFlush1_3 t h3)]
    iintro H; iexists d; iexact H

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl,
    show (dat1 V c).Φ t.castSucc = PhiS1 V c t.val (Nat.le_of_lt t.isLt) from rfl]
  unfold PhiS1
  iintro ⟨⟨%xs, %hxs, HS, Hrest, Hg⟩, Ho, ⟨%d0, H0⟩, ⟨%d1, H1⟩, ⟨%d2, H2⟩, ⟨%d3, H3⟩⟩
  iapply (sound_kernel1 c Set.univ (grid1.coords t) _ _ _ _ _ _ _ _ _ _ (iblk1 V c 0 t) (iblk1 V c 1 t) (iblk1 V c 2 t) _ xs
    (t.val % 4 = 0) (t.val % 4 = 3) (hcondA1 t) (hcondB1 t) (by omega) _)
  iframe H0 H1 H2 H3 HS
  iintro ⟨H0, H1, H2, H3, HS⟩
  rw [acc1_eq V c t xs hxs]
  isplitl [HS Hrest Hg]
  · iexists _; iframe; ipureintro; exact fun _ => rfl
  iframe
  iapply leaves1_3 V c t d3
  iexact H3

theorem body_obligation1 (c : Dev nD) : BodyObligation (dat1 (F := F) V c) (defs₀ (F := F)) Variants.none () Set.univ := fun t => by
  rw [bigSep_W1, bigSep_W1]
  exact sound_body1 V c t

theorem Phi_first1 (c : Dev nD) : Pipeline.ΦA spec1 c ⊢ (dat1 V c).Φ 0 := by
  rw [PhiA1_eq]; dsimp only [dat1]; unfold PhiS1
  iintro ⟨⟨⟨%d, HS⟩, Hrest⟩, Hg⟩
  iexists d; iframe; ipureintro; exact fun h => absurd rfl h

theorem Phi_last1 (c : Dev nD) : (dat1 V c).Φ (Fin.last cfg1.N) ⊢ Pipeline.ΦA spec1 c := by
  rw [PhiA1_eq]; dsimp only [dat1]; unfold PhiS1
  iintro ⟨%xs, -, HS, Hrest, Hg⟩
  iframe; iexists xs; iexact HS

end

end Cert.Kernel.Hand

end
-- ==== Proof.Kernel.Agg3.lean ====
import proofs.«137875_j10720238371126_1_alg».proof.Proof.Kernel.AggBody1

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end

theorem hcondA3 : ∀ t : Fin cfg3.N, t.val % 4 = 0 ↔ condA1 (grid3.coords t) :=
  (by decide +kernel : ∀ t : Fin grid3.N, t.val % 4 = 0 ↔ condA1 (grid3.coords t))
theorem hcondB3 : ∀ t : Fin cfg3.N, t.val % 4 = 3 ↔ condB1 (grid3.coords t) :=
  (by decide +kernel : ∀ t : Fin grid3.N, t.val % 4 = 3 ↔ condB1 (grid3.coords t))

theorem idleAt3_3 : ∀ t : Fin cfg3.N, ¬ t.val % 4 = 3 → cfg3.idle 3 (grid3.coords t) = true := by decide +kernel
theorem noFlush3_3 : ∀ t : Fin cfg3.N, ¬ t.val % 4 = 3 → (cfg3.win 3).flush t = false := by decide +kernel
theorem liveAt3_3 : ∀ t : Fin cfg3.N, t.val % 4 = 3 → cfg3.idle 3 (grid3.coords t) = false := by decide +kernel

/-- Regions 1, 3 and 5 run one body. -/
theorem agg3_eq : cc3__gcn_agg_kernel (F := F) = cc1__gcn_agg_kernel := rfl

abbrev scM3 : Memref sig .tc .vmem S2048x64 .f32 := Memref.whole cc3_scratch0

section
variable (V : (c : Dev nD) → (b : Ref sig .tc) → Buf (Elt F) ((c : Thread nD τ).loc b))

/-- The accumulator after point `n`: at a first column block zero plus the point's product, else what the point before left plus the product. -/
def accAt3 (c : Dev nD) : (n : ℕ) → n < cfg3.N → Vec F S2048x64 .f32
  | 0, hn => k1_pay2 (k1_pay1 (F := F)) (iblk3 V c 0 ⟨0, hn⟩) (iblk3 V c 1 ⟨0, hn⟩)
  | n + 1, hn =>
    if (n + 1) % 4 = 0 then k1_pay2 (k1_pay1 (F := F)) (iblk3 V c 0 ⟨n + 1, hn⟩) (iblk3 V c 1 ⟨n + 1, hn⟩)
    else k1_pay2 (accAt3 c n (Nat.lt_of_succ_lt hn)) (iblk3 V c 0 ⟨n + 1, hn⟩) (iblk3 V c 1 ⟨n + 1, hn⟩)

theorem accAt3_A (c : Dev nD) (t : Fin cfg3.N) (h : t.val % 4 = 0) :
    accAt3 V c t.val t.isLt = k1_pay2 (k1_pay1 (F := F)) (iblk3 V c 0 t) (iblk3 V c 1 t) := by
  obtain ⟨n, hn⟩ := t
  cases n with
  | zero => rfl
  | succ n => exact if_pos h

theorem accAt3_B (c : Dev nD) (t : Fin cfg3.N) (h : ¬ t.val % 4 = 0) :
    accAt3 V c t.val t.isLt
      = k1_pay2 (accAt3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h
  | succ n => exact if_neg h

theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
        ∗ (∃ r, prngReg c r)) := by
  unfold Pipeline.ΦA; rw [scopedRest3_split]; simp only [scM3, owns_whole]; try rfl

/-- Between points the scratch holds the accumulator the point before left (before the first point, anything). -/
def PhiS3 (c : Dev nD) (n : ℕ) (hn : n ≤ cfg3.N) : sProp 𝕄 :=
  iprop(∃ xs, ⌜(h : n ≠ 0) → xs = accAt3 V c (n - 1) (by omega)⌝ ∗ owns (c : Thread nD τ) scM3 fullShare xs
    ∗ Pipeline.scopedRestBut (Ix := Unit) (Name := ℕ) (U := UR sig nD τ) (Lvl := ℕ) (Val := Elt F) spec3 c [cc3_scratch0]
    ∗ (∃ r, prngReg c r))

/-- The region's data at the entry contents `V`: the output block of a last column block is the accumulator plus the bias row. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k1_pay3 (accAt3 V c t.val t.isLt) (iblk3 V c 2 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k1_pay3 (accAt3 V c t.val t.isLt) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- One step of the body is one step of the accumulator. -/
theorem acc3_eq (c : Dev nD) (t : Fin cfg3.N) (xs : Vec F S2048x64 .f32)
    (hxs : (h : t.val ≠ 0) → xs = accAt3 V c (t.val - 1) (Nat.lt_of_le_of_lt (Nat.sub_le _ _) t.isLt)) :
    acc1 (t.val % 4 = 0) xs (iblk3 V c 0 t) (iblk3 V c 1 t) = accAt3 V c t.val t.isLt := by
  unfold acc1
  by_cases h0 : t.val % 4 = 0
  · rw [if_pos h0, accAt3_A V c t h0]
  · rw [if_neg h0, accAt3_B V c t h0, hxs fun e => h0 (by rw [e])]

/-- The output block is written at a last column block and left as found elsewhere. -/
theorem leaves3_3 (c : Dev nD) (t : Fin cfg3.N) (d) :
    owns (c : Thread nD τ) (st3_3 t) fullShare
        (if t.val % 4 = 3 then k1_pay3 (accAt3 V c t.val t.isLt) (iblk3 V c 2 t) else (dat3 V c).before 3 t d)
      ⊢ (dat3 V c).leavesExact 3 t := by
  by_cases h3 : t.val % 4 = 3
  · rw [if_pos h3]; unfold Dat.leavesExact; rw [liveAt3_3 t h3, after3_3]
  · rw [if_neg h3, Dat.leavesExact_idle (dat3 V c) 3 t (idleAt3_3 t h3) (noFlush3_3 t h3)]
    iintro H; iexists d; iexact H

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare (iblk3 V c 0 t)
    ∗ owns (c : Thread nD τ) (st3_1 t) fullShare (iblk3 V c 1 t)
    ∗ owns (c : Thread nD τ) (st3_2 t) fullShare (iblk3 V c 2 t)
    ∗ (dat3 V c).leavesExact 3 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [agg3_eq]
  simp only [before3_0, before3_1, before3_2]
  rw [show (dat3 V c).owesAt () t.succ = (dat3 V c).owesAt () t.castSucc from rfl,
    show (dat3 V c).Φ t.succ = PhiS3 V c (t.val + 1) t.isLt from rfl,
    show (dat3 V c).Φ t.castSucc = PhiS3 V c t.val (Nat.le_of_lt t.isLt) from rfl]
  unfold PhiS3
  iintro ⟨⟨%xs, %hxs, HS, Hrest, Hg⟩, Ho, ⟨%d0, H0⟩, ⟨%d1, H1⟩, ⟨%d2, H2⟩, ⟨%d3, H3⟩⟩
  iapply (sound_kernel1 c Set.univ (grid3.coords t) _ _ _ _ _ _ _ _ _ _ (iblk3 V c 0 t) (iblk3 V c 1 t) (iblk3 V c 2 t) _ xs
    (t.val % 4 = 0) (t.val % 4 = 3) (hcondA3 t) (hcondB3 t) (by omega) _)
  iframe H0 H1 H2 H3 HS
  iintro ⟨H0, H1, H2, H3, HS⟩
  rw [acc3_eq V c t xs hxs]
  isplitl [HS Hrest Hg]
  · iexists _; iframe; ipureintro; exact fun _ => rfl
  iframe
  iapply leaves3_3 V c t d3
  iexact H3

theorem body_obligation3 (c : Dev nD) : BodyObligation (dat3 (F := F) V c) (defs₀ (F := F)) Variants.none () Set.univ := fun t => by
  rw [bigSep_W3, bigSep_W3]
  exact sound_body3 V c t

theorem Phi_first3 (c : Dev nD) : Pipeline.ΦA spec3 c ⊢ (dat3 V c).Φ 0 := by
  rw [PhiA3_eq]; dsimp only [dat3]; unfold PhiS3
  iintro ⟨⟨⟨%d, HS⟩, Hrest⟩, Hg⟩
  iexists d; iframe; ipureintro; exact fun h => absurd rfl h

theorem Phi_last3 (c : Dev nD) : (dat3 V c).Φ (Fin.last cfg3.N) ⊢ Pipeline.ΦA spec3 c := by
  rw [PhiA3_eq]; dsimp only [dat3]; unfold PhiS3
  iintro ⟨%xs, -, HS, Hrest, Hg⟩
  iframe; iexists xs; iexact HS

end

end Cert.Kernel.Hand

end
-- ==== Proof.Kernel.Agg5.lean ====
import proofs.«137875_j10720238371126_1_alg».proof.Proof.Kernel.AggBody1

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

end

theorem hcondA5 : ∀ t : Fin cfg5.N, t.val % 4 = 0 ↔ condA1 (grid5.coords t) :=
  (by decide +kernel : ∀ t : Fin grid5.N, t.val % 4 = 0 ↔ condA1 (grid5.coords t))
theorem hcondB5 : ∀ t : Fin cfg5.N, t.val % 4 = 3 ↔ condB1 (grid5.coords t) :=
  (by decide +kernel : ∀ t : Fin grid5.N, t.val % 4 = 3 ↔ condB1 (grid5.coords t))

theorem idleAt5_3 : ∀ t : Fin cfg5.N, ¬ t.val % 4 = 3 → cfg5.idle 3 (grid5.coords t) = true := by decide +kernel
theorem noFlush5_3 : ∀ t : Fin cfg5.N, ¬ t.val % 4 = 3 → (cfg5.win 3).flush t = false := by decide +kernel
theorem liveAt5_3 : ∀ t : Fin cfg5.N, t.val % 4 = 3 → cfg5.idle 3 (grid5.coords t) = false := by decide +kernel

/-- Regions 1, 3 and 5 run one body. -/
theorem agg5_eq : cc5__gcn_agg_kernel (F := F) = cc1__gcn_agg_kernel := rfl

abbrev scM5 : Memref sig .tc .vmem S2048x64 .f32 := Memref.whole cc5_scratch0

section
variable (V : (c : Dev nD) → (b : Ref sig .tc) → Buf (Elt F) ((c : Thread nD τ).loc b))

/-- The accumulator after point `n`: at a first column block zero plus the point's product, else what the point before left plus the product. -/
def accAt5 (c : Dev nD) : (n : ℕ) → n < cfg5.N → Vec F S2048x64 .f32
  | 0, hn => k1_pay2 (k1_pay1 (F := F)) (iblk5 V c 0 ⟨0, hn⟩) (iblk5 V c 1 ⟨0, hn⟩)
  | n + 1, hn =>
    if (n + 1) % 4 = 0 then k1_pay2 (k1_pay1 (F := F)) (iblk5 V c 0 ⟨n + 1, hn⟩) (iblk5 V c 1 ⟨n + 1, hn⟩)
    else k1_pay2 (accAt5 c n (Nat.lt_of_succ_lt hn)) (iblk5 V c 0 ⟨n + 1, hn⟩) (iblk5 V c 1 ⟨n + 1, hn⟩)

theorem accAt5_A (c : Dev nD) (t : Fin cfg5.N) (h : t.val % 4 = 0) :
    accAt5 V c t.val t.isLt = k1_pay2 (k1_pay1 (F := F)) (iblk5 V c 0 t) (iblk5 V c 1 t) := by
  obtain ⟨n, hn⟩ := t
  cases n with
  | zero => rfl
  | succ n => exact if_pos h

theorem accAt5_B (c : Dev nD) (t : Fin cfg5.N) (h : ¬ t.val % 4 = 0) :
    accAt5 V c t.val t.isLt
      = k1_pay2 (accAt5 V c (t.val - 1) (Nat.lt_of_le_of_lt (Nat.sub_le _ _) t.isLt)) (iblk5 V c 0 t) (iblk5 V c 1 t) := by
  obtain ⟨n, hn⟩ := t
  cases n with
  | zero => exact absurd (Nat.zero_mod _) h
  | succ n => exact if_neg h

theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0])
        ∗ (∃ r, prngReg c r)) := by
  unfold Pipeline.ΦA; rw [scopedRest5_split]; simp only [scM5, owns_whole]; try rfl

/-- Between points the scratch holds the accumulator the point before left (before the first point, anything). -/
def PhiS5 (c : Dev nD) (n : ℕ) (hn : n ≤ cfg5.N) : sProp 𝕄 :=
  iprop(∃ xs, ⌜(h : n ≠ 0) → xs = accAt5 V c (n - 1) (by omega)⌝ ∗ owns (c : Thread nD τ) scM5 fullShare xs
    ∗ Pipeline.scopedRestBut (Ix := Unit) (Name := ℕ) (U := UR sig nD τ) (Lvl := ℕ) (Val := Elt F) spec5 c [cc5_scratch0]
    ∗ (∃ r, prngReg c r))

/-- The region's data at the entry contents `V`: the output block of a last column block is the accumulator plus the bias row. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k1_pay3 (accAt5 V c t.val t.isLt) (iblk5 V c 2 t)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = k1_pay3 (accAt5 V c t.val t.isLt) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- One step of the body is one step of the accumulator. -/
theorem acc5_eq (c : Dev nD) (t : Fin cfg5.N) (xs : Vec F S2048x64 .f32)
    (hxs : (h : t.val ≠ 0) → xs = accAt5 V c (t.val - 1) (Nat.lt_of_le_of_lt (Nat.sub_le _ _) t.isLt)) :
    acc1 (t.val % 4 = 0) xs (iblk5 V c 0 t) (iblk5 V c 1 t) = accAt5 V c t.val t.isLt := by
  unfold acc1
  by_cases h0 : t.val % 4 = 0
  · rw [if_pos h0, accAt5_A V c t h0]
  · rw [if_neg h0, accAt5_B V c t h0, hxs fun e => h0 (by rw [e])]

/-- The output block is written at a last column block and left as found elsewhere. -/
theorem leaves5_3 (c : Dev nD) (t : Fin cfg5.N) (d) :
    owns (c : Thread nD τ) (st5_3 t) fullShare
        (if t.val % 4 = 3 then k1_pay3 (accAt5 V c t.val t.isLt) (iblk5 V c 2 t) else (dat5 V c).before 3 t d)
      ⊢ (dat5 V c).leavesExact 3 t := by
  by_cases h3 : t.val % 4 = 3
  · rw [if_pos h3]; unfold Dat.leavesExact; rw [liveAt5_3 t h3, after5_3]
  · rw [if_neg h3, Dat.leavesExact_idle (dat5 V c) 3 t (idleAt5_3 t h3) (noFlush5_3 t h3)]
    iintro H; iexists d; iexact H

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare (iblk5 V c 0 t)
    ∗ owns (c : Thread nD τ) (st5_1 t) fullShare (iblk5 V c 1 t)
    ∗ owns (c : Thread nD τ) (st5_2 t) fullShare (iblk5 V c 2 t)
    ∗ (dat5 V c).leavesExact 3 t)

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [agg5_eq]
  simp only [before5_0, before5_1, before5_2]
  rw [show (dat5 V c).owesAt () t.succ = (dat5 V c).owesAt () t.castSucc from rfl,
    show (dat5 V c).Φ t.succ = PhiS5 V c (t.val + 1) t.isLt from rfl,
    show (dat5 V c).Φ t.castSucc = PhiS5 V c t.val (Nat.le_of_lt t.isLt) from rfl]
  unfold PhiS5
  iintro ⟨⟨%xs, %hxs, HS, Hrest, Hg⟩, Ho, ⟨%d0, H0⟩, ⟨%d1, H1⟩, ⟨%d2, H2⟩, ⟨%d3, H3⟩⟩
  iapply (sound_kernel1 c Set.univ (grid5.coords t) _ _ _ _ _ _ _ _ _ _ (iblk5 V c 0 t) (iblk5 V c 1 t) (iblk5 V c 2 t) _ xs
    (t.val % 4 = 0) (t.val % 4 = 3) (hcondA5 t) (hcondB5 t) (by omega) _)
  iframe H0 H1 H2 H3 HS
  iintro ⟨H0, H1, H2, H3, HS⟩
  rw [acc5_eq V c t xs hxs]
  isplitl [HS Hrest Hg]
  · iexists _; iframe; ipureintro; exact fun _ => rfl
  iframe
  iapply leaves5_3 V c t d3
  iexact H3

theorem body_obligation5 (c : Dev nD) : BodyObligation (dat5 (F := F) V c) (defs₀ (F := F)) Variants.none () Set.univ := fun t => by
  rw [bigSep_W5, bigSep_W5]
  exact sound_body5 V c t

theorem Phi_first5 (c : Dev nD) : Pipeline.ΦA spec5 c ⊢ (dat5 V c).Φ 0 := by
  rw [PhiA5_eq]; dsimp only [dat5]; unfold PhiS5
  iintro ⟨⟨⟨%d, HS⟩, Hrest⟩, Hg⟩
  iexists d; iframe; ipureintro; exact fun h => absurd rfl h

theorem Phi_last5 (c : Dev nD) : (dat5 V c).Φ (Fin.last cfg5.N) ⊢ Pipeline.ΦA spec5 c := by
  rw [PhiA5_eq]; dsimp only [dat5]; unfold PhiS5
  iintro ⟨%xs, -, HS, Hrest, Hg⟩
  iframe; iexists xs; iexact HS

end

end Cert.Kernel.Hand

end
-- ==== Proof.Kernel.AggBody7.lean ====
import proofs.«137875_j10720238371126_1_alg».proof.Proof.Gen.Kernel.Launch
import proofs.«137875_j10720238371126_1_alg».proof.Proof.Gen.Kernel.Skeleton
import proofs.«137875_j10720238371126_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

theorem hzero7 : (![0, 0] : Fin 2 → ℕ) = fun _ => 0 := by funext a; fin_cases a <;> rfl

theorem cover_head7 (w : Vec F S2048x16 .f32) (L : List (View.Piece (Elt F) S2048x16 .f32)) (y : S2048x16.Idx) :
    ∃ p ∈ ((⟨Rect.unit (s := S2048x16) ![0, 0] S2048x16.size inb_S2048x16_S2048x16_0_0, w⟩ : View.Piece (Elt F) S2048x16 .f32) :: L), y ∈ p.1.set :=
  ⟨_, List.mem_cons.mpr (Or.inl rfl), View.mem_set_unit_zero hzero7 inb_S2048x16_S2048x16_0_0 y⟩

abbrev condA7 (i : grid7.Coords) : Prop := (Scalar.cmpi .ne (Scalar.extui (Scalar.cmpi .eq (BitVec.ofNat 32 (i 1).val) 0#32)) 0#32) = 1#1
abbrev condB7 (i : grid7.Coords) : Prop := k7_cond2 i = 1#1

/-- The accumulator after a point: restarted from zero where `pA` holds, it gains the product of the point's two blocks. -/
abbrev acc7 (pA : Prop) [Decidable pA] (xs : Vec F S2048x16 .f32) (x0 : Vec F S2048x4096 .bf16) (x1 : Vec F S4096x16 .bf16) : Vec F S2048x16 .f32 :=
  k7_pay2 (if pA then k7_pay1 (F := F) else xs) x0 x1

/-- The body at one point, its two branch conditions read as `pA` (a first column block) and `pB` (a last one): the
    accumulator is updated, and where `pB` holds the output block becomes the accumulator plus the bias row. -/
theorem sound_kernel7 (c : Dev nD) (E : Set ℕ) (i : grid7.Coords)
    (arg2 : Memref sig .tc .vmem S2048x4096 .bf16) (harg2 : arg2.IsWhole) (arg3 : Memref sig .tc .vmem S4096x16 .bf16) (harg3 : arg3.IsWhole)
    (arg4 : Memref sig .tc .vmem S1x16 .f32) (harg4 : arg4.IsWhole) (arg5 : Memref sig .tc .vmem S2048x16 .f32) (harg5 : arg5.IsWhole)
    (arg6 : Memref sig .tc .vmem S2048x16 .f32) (harg6 : arg6.IsWhole)
    (x0 : Vec F S2048x4096 .bf16) (x1 : Vec F S4096x16 .bf16) (xb : Vec F S1x16 .f32) (xo xs : Vec F S2048x16 .f32)
    (pA pB : Prop) [Decidable pA] [Decidable pB] (hA : pA ↔ condA7 i) (hB : pB ↔ condB7 i) (hAB : ¬(pA ∧ pB)) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare (if pB then k7_pay3 (acc7 pA xs x0 x1) xb else xo)
            ∗ owns (c : Thread nD τ) arg6 fullShare (acc7 pA xs x0 x1)) -∗ K ⟨⟩))
      ⊢ wp frame (wpE (defs₀ (F := F)) Variants.none c none) E (cc7__gcn_agg_kernel i arg2 harg2 arg3 harg3 arg4 harg4 arg5 harg5 arg6 harg6) K := by
  simp only [cc7__gcn_agg_kernel_eq_skeleton]; unfold cc7__gcn_agg_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  by_cases hp0 : pA <;> by_cases hp1 : pB
  · exact (hAB ⟨hp0, hp1⟩).elim
  all_goals
    have hc0 := hp0; have hc1 := hp1
    rw [hA] at hc0; rw [hB] at hc1
    sl_exec (disch := first | exact hc0 | exact hc1)
    sl_step
    iapply Hk
    isplitl [H0]; · iexists f0; iframe; ipureintro; rfl
    isplitl [H1]; · iexists f1; iframe; ipureintro; rfl
    isplitl [H2]; · iexists f2; iframe; ipureintro; rfl
    isplitl [H3]
    · iexists _; iframe; ipureintro
      first
        | rw [if_neg hp1]
        | (rw [if_pos hp1]; unfold acc7
           first | rw [if_pos hp0] | rw [if_neg hp0]
           sl_unfold_run_names
           refine (View.read_writes_eq_canon _ _ _ (cover_head7 _ _)).trans ?_
           rw [View.canon_cons_unit_zero (S := S2048x16) hzero7]
           simp only [View.readAt_eq_ld, View.ld_unit_zero (S := S2048x4096) hzero7, View.ld_unit_zero (S := S4096x16) hzero7,
             View.ld_unit_zero (S := S2048x16) hzero7, View.ld_unit_zero (S := S1x16) hzero7, View.readCov_unit_zero (S := S2048x16) _ hzero7])
    iexists _; iframe; ipureintro
    unfold acc7
    first | rw [if_pos hp0] | rw [if_neg hp0]
    sl_unfold_run_names
    refine (View.read_writes_eq_canon _ _ _ (cover_head7 _ _)).trans ?_
    rw [View.canon_cons_unit_zero (S := S2048x16) hzero7]
    simp only [View.readAt_eq_ld, View.ld_unit_zero (S := S2048x4096) hzero7, View.ld_unit_zero (S := S4096x16) hzero7,
      View.ld_unit_zero (S := S2048x16) hzero7, View.readCov_unit_zero (S := S2048x16) _ hzero7]

end Cert.Kernel.Hand

end
-- ==== Proof.Kernel.Agg7.lean ====
import proofs.«137875_j10720238371126_1_alg».proof.Proof.Kernel.AggBody7

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

end

theorem hcondA7 : ∀ t : Fin cfg7.N, t.val % 4 = 0 ↔ condA7 (grid7.coords t) :=
  (by decide +kernel : ∀ t : Fin grid7.N, t.val % 4 = 0 ↔ condA7 (grid7.coords t))
theorem hcondB7 : ∀ t : Fin cfg7.N, t.val % 4 = 3 ↔ condB7 (grid7.coords t) :=
  (by decide +kernel : ∀ t : Fin grid7.N, t.val % 4 = 3 ↔ condB7 (grid7.coords t))

theorem idleAt7_3 : ∀ t : Fin cfg7.N, ¬ t.val % 4 = 3 → cfg7.idle 3 (grid7.coords t) = true := by decide +kernel
theorem noFlush7_3 : ∀ t : Fin cfg7.N, ¬ t.val % 4 = 3 → (cfg7.win 3).flush t = false := by decide +kernel
theorem liveAt7_3 : ∀ t : Fin cfg7.N, t.val % 4 = 3 → cfg7.idle 3 (grid7.coords t) = false := by decide +kernel

abbrev scM7 : Memref sig .tc .vmem S2048x16 .f32 := Memref.whole cc7_scratch0

section
variable (V : (c : Dev nD) → (b : Ref sig .tc) → Buf (Elt F) ((c : Thread nD τ).loc b))

/-- The accumulator after point `n`: at a first column block zero plus the point's product, else what the point before left plus the product. -/
def accAt7 (c : Dev nD) : (n : ℕ) → n < cfg7.N → Vec F S2048x16 .f32
  | 0, hn => k7_pay2 (k7_pay1 (F := F)) (iblk7 V c 0 ⟨0, hn⟩) (iblk7 V c 1 ⟨0, hn⟩)
  | n + 1, hn =>
    if (n + 1) % 4 = 0 then k7_pay2 (k7_pay1 (F := F)) (iblk7 V c 0 ⟨n + 1, hn⟩) (iblk7 V c 1 ⟨n + 1, hn⟩)
    else k7_pay2 (accAt7 c n (Nat.lt_of_succ_lt hn)) (iblk7 V c 0 ⟨n + 1, hn⟩) (iblk7 V c 1 ⟨n + 1, hn⟩)

theorem accAt7_A (c : Dev nD) (t : Fin cfg7.N) (h : t.val % 4 = 0) :
    accAt7 V c t.val t.isLt = k7_pay2 (k7_pay1 (F := F)) (iblk7 V c 0 t) (iblk7 V c 1 t) := by
  obtain ⟨n, hn⟩ := t
  cases n with
  | zero => rfl
  | succ n => exact if_pos h

theorem accAt7_B (c : Dev nD) (t : Fin cfg7.N) (h : ¬ t.val % 4 = 0) :
    accAt7 V c t.val t.isLt
      = k7_pay2 (accAt7 V c (t.val - 1) (Nat.lt_of_le_of_lt (Nat.sub_le _ _) t.isLt)) (iblk7 V c 0 t) (iblk7 V c 1 t) := by
  obtain ⟨n, hn⟩ := t
  cases n with
  | zero => exact absurd (Nat.zero_mod _) h
  | succ n => exact if_neg h

theorem PhiA7_eq (c : Dev nD) :
    (Pipeline.ΦA spec7 c : sProp 𝕄)
      = iprop(iprop((∃ d, owns (c : Thread nD τ) scM7 fullShare d)
          ∗ Pipeline.scopedRestBut (Ix := Unit) (Name := ℕ) (U := UR sig nD τ) (Lvl := ℕ) (Val := Elt F) spec7 c [cc7_scratch0])
        ∗ (∃ r, prngReg c r)) := by
  unfold Pipeline.ΦA; rw [scopedRest7_split]; simp only [scM7, owns_whole]; try rfl

/-- Between points the scratch holds the accumulator the point before left (before the first point, anything). -/
def PhiS7 (c : Dev nD) (n : ℕ) (hn : n ≤ cfg7.N) : sProp 𝕄 :=
  iprop(∃ xs, ⌜(h : n ≠ 0) → xs = accAt7 V c (n - 1) (by omega)⌝ ∗ owns (c : Thread nD τ) scM7 fullShare xs
    ∗ Pipeline.scopedRestBut (Ix := Unit) (Name := ℕ) (U := UR sig nD τ) (Lvl := ℕ) (Val := Elt F) spec7 c [cc7_scratch0]
    ∗ (∃ r, prngReg c r))

/-- The region's data at the entry contents `V`: the output block of a last column block is the accumulator plus the bias row. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => k7_pay3 (accAt7 V c t.val t.isLt) (iblk7 V c 2 t)
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = k7_pay3 (accAt7 V c t.val t.isLt) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- One step of the body is one step of the accumulator. -/
theorem acc7_eq (c : Dev nD) (t : Fin cfg7.N) (xs : Vec F S2048x16 .f32)
    (hxs : (h : t.val ≠ 0) → xs = accAt7 V c (t.val - 1) (Nat.lt_of_le_of_lt (Nat.sub_le _ _) t.isLt)) :
    acc7 (t.val % 4 = 0) xs (iblk7 V c 0 t) (iblk7 V c 1 t) = accAt7 V c t.val t.isLt := by
  unfold acc7
  by_cases h0 : t.val % 4 = 0
  · rw [if_pos h0, accAt7_A V c t h0]
  · rw [if_neg h0, accAt7_B V c t h0, hxs fun e => h0 (by rw [e])]

/-- The output block is written at a last column block and left as found elsewhere. -/
theorem leaves7_3 (c : Dev nD) (t : Fin cfg7.N) (d) :
    owns (c : Thread nD τ) (st7_3 t) fullShare
        (if t.val % 4 = 3 then k7_pay3 (accAt7 V c t.val t.isLt) (iblk7 V c 2 t) else (dat7 V c).before 3 t d)
      ⊢ (dat7 V c).leavesExact 3 t := by
  by_cases h3 : t.val % 4 = 3
  · rw [if_pos h3]; unfold Dat.leavesExact; rw [liveAt7_3 t h3, after7_3]
  · rw [if_neg h3, Dat.leavesExact_idle (dat7 V c) 3 t (idleAt7_3 t h3) (noFlush7_3 t h3)]
    iintro H; iexists d; iexact H

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ owns (c : Thread nD τ) (st7_0 t) fullShare (iblk7 V c 0 t)
    ∗ owns (c : Thread nD τ) (st7_1 t) fullShare (iblk7 V c 1 t)
    ∗ owns (c : Thread nD τ) (st7_2 t) fullShare (iblk7 V c 2 t)
    ∗ (dat7 V c).leavesExact 3 t)

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl,
    show (dat7 V c).Φ t.succ = PhiS7 V c (t.val + 1) t.isLt from rfl,
    show (dat7 V c).Φ t.castSucc = PhiS7 V c t.val (Nat.le_of_lt t.isLt) from rfl]
  unfold PhiS7
  iintro ⟨⟨%xs, %hxs, HS, Hrest, Hg⟩, Ho, ⟨%d0, H0⟩, ⟨%d1, H1⟩, ⟨%d2, H2⟩, ⟨%d3, H3⟩⟩
  iapply (sound_kernel7 c Set.univ (grid7.coords t) _ _ _ _ _ _ _ _ _ _ (iblk7 V c 0 t) (iblk7 V c 1 t) (iblk7 V c 2 t) _ xs
    (t.val % 4 = 0) (t.val % 4 = 3) (hcondA7 t) (hcondB7 t) (by omega) _)
  iframe H0 H1 H2 H3 HS
  iintro ⟨H0, H1, H2, H3, HS⟩
  rw [acc7_eq V c t xs hxs]
  isplitl [HS Hrest Hg]
  · iexists _; iframe; ipureintro; exact fun _ => rfl
  iframe
  iapply leaves7_3 V c t d3
  iexact H3

theorem body_obligation7 (c : Dev nD) : BodyObligation (dat7 (F := F) V c) (defs₀ (F := F)) Variants.none () Set.univ := fun t => by
  rw [bigSep_W7, bigSep_W7]
  exact sound_body7 V c t

theorem Phi_first7 (c : Dev nD) : Pipeline.ΦA spec7 c ⊢ (dat7 V c).Φ 0 := by
  rw [PhiA7_eq]; dsimp only [dat7]; unfold PhiS7
  iintro ⟨⟨⟨%d, HS⟩, Hrest⟩, Hg⟩
  iexists d; iframe; ipureintro; exact fun h => absurd rfl h

theorem Phi_last7 (c : Dev nD) : (dat7 V c).Φ (Fin.last cfg7.N) ⊢ Pipeline.ΦA spec7 c := by
  rw [PhiA7_eq]; dsimp only [dat7]; unfold PhiS7
  iintro ⟨%xs, -, HS, Hrest, Hg⟩
  iframe; iexists xs; iexact HS

end

end Cert.Kernel.Hand

end
-- ==== Proof.Kernel.Chain.lean ====
import proofs.«137875_j10720238371126_1_alg».proof.Proof.Kernel.Hw0
import proofs.«137875_j10720238371126_1_alg».proof.Proof.Kernel.Hw4
import proofs.«137875_j10720238371126_1_alg».proof.Proof.Kernel.Hw6
import proofs.«137875_j10720238371126_1_alg».proof.Proof.Kernel.Agg1
import proofs.«137875_j10720238371126_1_alg».proof.Proof.Kernel.Agg3
import proofs.«137875_j10720238371126_1_alg».proof.Proof.Kernel.Agg5
import proofs.«137875_j10720238371126_1_alg».proof.Proof.Kernel.Agg7
import proofs.«137875_j10720238371126_1_alg».proof.Proof.Gen.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

/-- The contents of a core's buffers between the items of the run: a host stretch applies its lines, a region replaces its output array by what it leaves there. -/
abbrev W0 (c : Dev nD) : Valuation τ sig (Elt F) := fun b => m (c, b)

abbrev W1 (c : Dev nD) : Valuation τ sig (Elt F) := StableHlo.after hostOps0 (W0 m c)

def o2 (c : Dev nD) : Buf (Elt F) ((c : Thread nD τ).loc main_v2) := (dat0 (atTc (W1 m)) c).arrAt 2 cfg0.N
def W2 (c : Dev nD) : Valuation τ sig (Elt F) := Function.update (W1 m c) main_v2 (o2 m c)
def o3 (c : Dev nD) : Buf (Elt F) ((c : Thread nD τ).loc main_v3) := (dat1 (atTc (W2 m)) c).arrAt 3 cfg1.N
def W3 (c : Dev nD) : Valuation τ sig (Elt F) := Function.update (W2 m c) main_v3 (o3 m c)
abbrev W4 (c : Dev nD) : Valuation τ sig (Elt F) := StableHlo.after hostOps2 (W3 m c)
def o5 (c : Dev nD) : Buf (Elt F) ((c : Thread nD τ).loc main_v9) := (dat2 (atTc (W4 m)) c).arrAt 2 cfg2.N
def W5 (c : Dev nD) : Valuation τ sig (Elt F) := Function.update (W4 m c) main_v9 (o5 m c)
def o6 (c : Dev nD) : Buf (Elt F) ((c : Thread nD τ).loc main_v10) := (dat3 (atTc (W5 m)) c).arrAt 3 cfg3.N
def W6 (c : Dev nD) : Valuation τ sig (Elt F) := Function.update (W5 m c) main_v10 (o6 m c)
abbrev W7 (c : Dev nD) : Valuation τ sig (Elt F) := StableHlo.after hostOps4 (W6 m c)
def o8 (c : Dev nD) : Buf (Elt F) ((c : Thread nD τ).loc main_v16) := (dat4 (atTc (W7 m)) c).arrAt 2 cfg4.N
def W8 (c : Dev nD) : Valuation τ sig (Elt F) := Function.update (W7 m c) main_v16 (o8 m c)
def o9 (c : Dev nD) : Buf (Elt F) ((c : Thread nD τ).loc main_v17) := (dat5 (atTc (W8 m)) c).arrAt 3 cfg5.N
def W9 (c : Dev nD) : Valuation τ sig (Elt F) := Function.update (W8 m c) main_v17 (o9 m c)
abbrev W10 (c : Dev nD) : Valuation τ sig (Elt F) := StableHlo.after hostOps6 (W9 m c)
def o11 (c : Dev nD) : Buf (Elt F) ((c : Thread nD τ).loc main_v19) := (dat6 (atTc (W10 m)) c).arrAt 2 cfg6.N
def W11 (c : Dev nD) : Valuation τ sig (Elt F) := Function.update (W10 m c) main_v19 (o11 m c)
def o12 (c : Dev nD) : Buf (Elt F) ((c : Thread nD τ).loc main_v20) := (dat7 (atTc (W11 m)) c).arrAt 3 cfg7.N
def W12 (c : Dev nD) : Valuation τ sig (Elt F) := Function.update (W11 m c) main_v20 (o12 m c)

theorem W2_self (c : Dev nD) : W2 m c main_v2 = o2 m c := by unfold W2; exact Function.update_self ..
theorem W2_of_ne (c : Dev nD) (b : Ref sig .tc) (h : b ≠ main_v2) : W2 m c b = W1 m c b := by
  unfold W2; exact Function.update_of_ne (StableHlo.devRef_ne_of_ne h) _ _
theorem W3_self (c : Dev nD) : W3 m c main_v3 = o3 m c := by unfold W3; exact Function.update_self ..
theorem W3_of_ne (c : Dev nD) (b : Ref sig .tc) (h : b ≠ main_v3) : W3 m c b = W2 m c b := by
  unfold W3; exact Function.update_of_ne (StableHlo.devRef_ne_of_ne h) _ _
theorem W5_self (c : Dev nD) : W5 m c main_v9 = o5 m c := by unfold W5; exact Function.update_self ..
theorem W5_of_ne (c : Dev nD) (b : Ref sig .tc) (h : b ≠ main_v9) : W5 m c b = W4 m c b := by
  unfold W5; exact Function.update_of_ne (StableHlo.devRef_ne_of_ne h) _ _
theorem W6_self (c : Dev nD) : W6 m c main_v10 = o6 m c := by unfold W6; exact Function.update_self ..
theorem W6_of_ne (c : Dev nD) (b : Ref sig .tc) (h : b ≠ main_v10) : W6 m c b = W5 m c b := by
  unfold W6; exact Function.update_of_ne (StableHlo.devRef_ne_of_ne h) _ _
theorem W8_self (c : Dev nD) : W8 m c main_v16 = o8 m c := by unfold W8; exact Function.update_self ..
theorem W8_of_ne (c : Dev nD) (b : Ref sig .tc) (h : b ≠ main_v16) : W8 m c b = W7 m c b := by
  unfold W8; exact Function.update_of_ne (StableHlo.devRef_ne_of_ne h) _ _
theorem W9_self (c : Dev nD) : W9 m c main_v17 = o9 m c := by unfold W9; exact Function.update_self ..
theorem W9_of_ne (c : Dev nD) (b : Ref sig .tc) (h : b ≠ main_v17) : W9 m c b = W8 m c b := by
  unfold W9; exact Function.update_of_ne (StableHlo.devRef_ne_of_ne h) _ _
theorem W11_self (c : Dev nD) : W11 m c main_v19 = o11 m c := by unfold W11; exact Function.update_self ..
theorem W11_of_ne (c : Dev nD) (b : Ref sig .tc) (h : b ≠ main_v19) : W11 m c b = W10 m c b := by
  unfold W11; exact Function.update_of_ne (StableHlo.devRef_ne_of_ne h) _ _
theorem W12_self (c : Dev nD) : W12 m c main_v20 = o12 m c := by unfold W12; exact Function.update_self ..
theorem W12_of_ne (c : Dev nD) (b : Ref sig .tc) (h : b ≠ main_v20) : W12 m c b = W11 m c b := by
  unfold W12; exact Function.update_of_ne (StableHlo.devRef_ne_of_ne h) _ _

/-- What each region leaves in its output array, item by item. -/
def outs : Gen.Outs (F := F) := fun J r c =>
  match J with
  | 2 => W2 m c r
  | 3 => W3 m c r
  | 5 => W5 m c r
  | 6 => W6 m c r
  | 8 => W8 m c r
  | 9 => W9 m c r
  | 11 => W11 m c r
  | 12 => W12 m c r
  | _ => W0 m c r

theorem V1_eq (c : Dev nD) : Gen.V1 m c = W1 m c := rfl
theorem V2_eq (c : Dev nD) : Gen.V2 m (outs m) c = W2 m c := by
  show Function.update (Gen.V1 m c) main_v2 (W2 m c main_v2) = W2 m c
  rw [W2_self, V1_eq]; rfl
theorem V3_eq (c : Dev nD) : Gen.V3 m (outs m) c = W3 m c := by
  show Function.update (Gen.V2 m (outs m) c) main_v3 (W3 m c main_v3) = W3 m c
  rw [W3_self, V2_eq]; rfl
theorem V4_eq (c : Dev nD) : Gen.V4 m (outs m) c = W4 m c := by
  show StableHlo.after hostOps2 (Gen.V3 m (outs m) c) = W4 m c
  rw [V3_eq]
theorem V5_eq (c : Dev nD) : Gen.V5 m (outs m) c = W5 m c := by
  show Function.update (Gen.V4 m (outs m) c) main_v9 (W5 m c main_v9) = W5 m c
  rw [W5_self, V4_eq]; rfl
theorem V6_eq (c : Dev nD) : Gen.V6 m (outs m) c = W6 m c := by
  show Function.update (Gen.V5 m (outs m) c) main_v10 (W6 m c main_v10) = W6 m c
  rw [W6_self, V5_eq]; rfl
theorem V7_eq (c : Dev nD) : Gen.V7 m (outs m) c = W7 m c := by
  show StableHlo.after hostOps4 (Gen.V6 m (outs m) c) = W7 m c
  rw [V6_eq]
theorem V8_eq (c : Dev nD) : Gen.V8 m (outs m) c = W8 m c := by
  show Function.update (Gen.V7 m (outs m) c) main_v16 (W8 m c main_v16) = W8 m c
  rw [W8_self, V7_eq]; rfl
theorem V9_eq (c : Dev nD) : Gen.V9 m (outs m) c = W9 m c := by
  show Function.update (Gen.V8 m (outs m) c) main_v17 (W9 m c main_v17) = W9 m c
  rw [W9_self, V8_eq]; rfl
theorem V10_eq (c : Dev nD) : Gen.V10 m (outs m) c = W10 m c := by
  show StableHlo.after hostOps6 (Gen.V9 m (outs m) c) = W10 m c
  rw [V9_eq]
theorem V11_eq (c : Dev nD) : Gen.V11 m (outs m) c = W11 m c := by
  show Function.update (Gen.V10 m (outs m) c) main_v19 (W11 m c main_v19) = W11 m c
  rw [W11_self, V10_eq]; rfl
theorem V12_eq (c : Dev nD) : Gen.V12 m (outs m) c = W12 m c := by
  show Function.update (Gen.V11 m (outs m) c) main_v20 (W12 m c main_v20) = W12 m c
  rw [W12_self, V11_eq]; rfl

/-- Each region's data, at the contents it is entered from. -/
def pdats : (p : Fin 8) → (c : Dev nD) → Dat τ (Elt F) Unit ℕ (UR sig nD τ) ℕ (cfgs p) c
  | ⟨0, _⟩ => fun c => dat0 (atTc (W1 m)) c
  | ⟨1, _⟩ => fun c => dat1 (atTc (W2 m)) c
  | ⟨2, _⟩ => fun c => dat2 (atTc (W4 m)) c
  | ⟨3, _⟩ => fun c => dat3 (atTc (W5 m)) c
  | ⟨4, _⟩ => fun c => dat4 (atTc (W7 m)) c
  | ⟨5, _⟩ => fun c => dat5 (atTc (W8 m)) c
  | ⟨6, _⟩ => fun c => dat6 (atTc (W10 m)) c
  | ⟨7, _⟩ => fun c => dat7 (atTc (W11 m)) c

abbrev 𝒱₀ : Variants := Variants.none

abbrev L : GSem nD τ sig → Finset Unit := fun _ => ∅
abbrev lv : GSem nD τ sig → Unit → ℕ := fun _ _ => 0

/-- What rides beside the buffers through every item and comes back as it went in. -/
abbrev R (c : Dev nD) : sProp 𝕄 := iprop((∃ r, prngReg c r) ∗ ∃ W, owes (c : Thread nD τ) (0 : CellTallies nD τ sig Unit) W)

end Cert.Kernel.Hand

end
-- ==== Proof.Kernel.Segs.lean ====
import proofs.«137875_j10720238371126_1_alg».proof.Proof.Kernel.Chain

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- Region `p` as one item of the run, entered at the contents `Wi` and left at `Wo`, which differ only at its output array `ro`:
    every other array of the region is an input and keeps its contents, and the arrays are distinct. -/
def regOf (p : Fin 8) (Wi Wo : Dev nD → Valuation τ sig (Elt F)) (la : Pipeline.LaunchFacts (nD := nD) (τ := τ) cfgs p)
    (hb : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = atTc Wi c (Pipeline.arrRef (pcfgs (F := F) p).spec w))
    (hin : ∀ c, Pipeline.ΦA (pcfgs (F := F) p).spec c ⊢ (pdats m p c).Φ 0)
    (hout : ∀ c, (pdats m p c).Φ (Fin.last _) ⊢ Pipeline.ΦA (pcfgs (F := F) p).spec c)
    (ro : Ref sig .tc) (wo : Fin (cfgs p).W) (hro : Pipeline.arrRef (pcfgs (F := F) p).spec wo = ro)
    (hne : ∀ c b, b ≠ ro → Wo c b = Wi c b) (hinp : ∀ w, w ≠ wo → ((cfgs p).win w).isOut = false)
    (hself : ∀ c, (pdats m p c).arrAt wo (cfgs p).N = atTc Wo c (Pipeline.arrRef (pcfgs (F := F) p).spec wo)) :
    Pipeline.RegionSeg (pcfgs (F := F)) Gen.adm (pdats m) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (atTc Wi c)
  hentry c := by
    rw [Pipeline.ownSems0_none]
    have hsplit := Pipeline.arrays_of_unscopedBufs (p := p) (pcfgs (F := F)) Gen.adm (pdats m) la.win la.arr_whole c
      ((pdats m p c).share_full (hq c)) (atTc Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      la.win la.arr_whole c (pdats m) ((pdats m p c).share_full (hq c))
      (atTc Wi c) (atTc Wo c) ((pdats m p c).arrAt · (cfgs p).N)
      (fun w => by
        by_cases hw : w = wo
        · subst hw; exact hself c
        · exact ((pdats m p c).arrAt_in w (hinp w hw) _).trans ((hA c w).trans
            (hne c _ fun e => hw (la.win.arr_inj (e.trans hro.symm))).symm))
      fun b hb => hne c b fun e => hb (Finset.mem_image.mpr ⟨wo, Finset.mem_univ _, hro.trans e.symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := regOf m 0 (W1 m) (W2 m) launch0 (fun c => body_obligation0 _ c) (fun _ _ => rfl) (fun _ _ => rfl) (fun _ _ => rfl)
  (fun _ _ => rfl) (fun c => .rfl) (fun c => .rfl) main_v2 2 rfl (W2_of_ne m) (by decide) (fun c => (W2_self m c).symm)

def reg1 := regOf m 1 (W2 m) (W3 m) launch1 (fun c => body_obligation1 _ c) (fun _ _ => rfl) (fun _ _ => rfl) (fun _ _ => rfl)
  (fun _ _ => rfl) (fun c => Phi_first1 _ c) (fun c => Phi_last1 _ c) main_v3 3 rfl (W3_of_ne m) (by decide) (fun c => (W3_self m c).symm)

def reg2 := regOf m 2 (W4 m) (W5 m) launch2 (fun c => body_obligation2 _ c) (fun _ _ => rfl) (fun _ _ => rfl) (fun _ _ => rfl)
  (fun _ _ => rfl) (fun c => .rfl) (fun c => .rfl) main_v9 2 rfl (W5_of_ne m) (by decide) (fun c => (W5_self m c).symm)

def reg3 := regOf m 3 (W5 m) (W6 m) launch3 (fun c => body_obligation3 _ c) (fun _ _ => rfl) (fun _ _ => rfl) (fun _ _ => rfl)
  (fun _ _ => rfl) (fun c => Phi_first3 _ c) (fun c => Phi_last3 _ c) main_v10 3 rfl (W6_of_ne m) (by decide) (fun c => (W6_self m c).symm)

def reg4 := regOf m 4 (W7 m) (W8 m) launch4 (fun c => body_obligation4 _ c) (fun _ _ => rfl) (fun _ _ => rfl) (fun _ _ => rfl)
  (fun _ _ => rfl) (fun c => .rfl) (fun c => .rfl) main_v16 2 rfl (W8_of_ne m) (by decide) (fun c => (W8_self m c).symm)

def reg5 := regOf m 5 (W8 m) (W9 m) launch5 (fun c => body_obligation5 _ c) (fun _ _ => rfl) (fun _ _ => rfl) (fun _ _ => rfl)
  (fun _ _ => rfl) (fun c => Phi_first5 _ c) (fun c => Phi_last5 _ c) main_v17 3 rfl (W9_of_ne m) (by decide) (fun c => (W9_self m c).symm)

def reg6 := regOf m 6 (W10 m) (W11 m) launch6 (fun c => body_obligation6 _ c) (fun _ _ => rfl) (fun _ _ => rfl) (fun _ _ => rfl)
  (fun _ _ => rfl) (fun c => .rfl) (fun c => .rfl) main_v19 2 rfl (W11_of_ne m) (by decide) (fun c => (W11_self m c).symm)

def reg7 := regOf m 7 (W11 m) (W12 m) launch7 (fun c => body_obligation7 _ c) (fun _ _ => rfl) (fun _ _ => rfl) (fun _ _ => rfl)
  (fun _ _ => rfl) (fun c => Phi_first7 _ c) (fun c => Phi_last7 _ c) main_v20 3 rfl (W12_of_ne m) (by decide) (fun c => (W12_self m c).symm)

end Cert.Kernel.Hand

end
-- ==== Proof.Kernel.Frame.lean ====
import proofs.«137875_j10720238371126_1_alg».proof.Proof.Kernel.Segs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates without fault and keeps the arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond (m := m)
    (EP := emb₁) (ι := ()) (𝒱₀ := 𝒱₀) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hcore : ∀ c : Dev nD,
          iprop(unscopedSems0 c ∗ owes (c : Thread nD τ) ((0 : Dev nD → CellTallies nD τ sig Unit) c) ∅
              ∗ Pipeline.launchCred (0 : Dev nD → CellTallies nD τ sig Unit) c ∗ prngReg c (ρ c) ∗ iprop(emp))
            ⊢ (R c : sProp 𝕄) := fun c => by
        iintro ⟨-, HO, -, Hp, -⟩
        isplitl [Hp]; · iexists _; iexact Hp
        iexists ∅; iexact HO
      have hmono : (bigSep Finset.univ fun c : Dev nD =>
            iprop(unscopedSems0 c ∗ owes (c : Thread nD τ) ((0 : Dev nD → CellTallies nD τ sig Unit) c) ∅
              ∗ Pipeline.launchCred (0 : Dev nD → CellTallies nD τ sig Unit) c ∗ prngReg c (ρ c) ∗ iprop(emp)))
          ⊢ (bigSep Finset.univ (fun c : Dev nD => R c) : sProp 𝕄) :=
        bigSep_mono (s := Finset.univ) fun c _ => hcore c
      iintro ⟨H, -⟩
      imodintro
      iapply hmono
      iexact H)
    (hE8 := fun c => by iintro ⟨-, HO⟩; iexact HO)
    (R0 := reg0 m) (hpre0 := fun c => by rw [V1_eq]; exact .rfl) (hpost0 := fun c => by rw [V2_eq]; exact .rfl)
    (R1 := reg1 m) (hpre1 := fun c => by rw [V2_eq]; exact .rfl) (hpost1 := fun c => by rw [V3_eq]; exact .rfl)
    (R2 := reg2 m) (hpre2 := fun c => by rw [V4_eq]; exact .rfl) (hpost2 := fun c => by rw [V5_eq]; exact .rfl)
    (R3 := reg3 m) (hpre3 := fun c => by rw [V5_eq]; exact .rfl) (hpost3 := fun c => by rw [V6_eq]; exact .rfl)
    (R4 := reg4 m) (hpre4 := fun c => by rw [V7_eq]; exact .rfl) (hpost4 := fun c => by rw [V8_eq]; exact .rfl)
    (R5 := reg5 m) (hpre5 := fun c => by rw [V8_eq]; exact .rfl) (hpost5 := fun c => by rw [V9_eq]; exact .rfl)
    (R6 := reg6 m) (hpre6 := fun c => by rw [V10_eq]; exact .rfl) (hpost6 := fun c => by rw [V11_eq]; exact .rfl)
    (R7 := reg7 m) (hpre7 := fun c => by rw [V11_eq]; exact .rfl) (hpost7 := fun c => by rw [V12_eq]; exact .rfl)

end Cert.Kernel.Hand

end
-- ==== Proof.KernelIdeal.Hw0.lean ====
import proofs.«137875_j10720238371126_1_alg».proof.Proof.Gen.KernelIdeal.Launch
import proofs.«137875_j10720238371126_1_alg».proof.Proof.Gen.KernelIdeal.Skeleton
import proofs.«137875_j10720238371126_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S4096x128 := Rect.unit (s := S4096x128) ![0, 0] S4096x128.size inb_S4096x128_S4096x128_0_0
abbrev rw0 : Rect S128x64 := Rect.unit (s := S128x64) ![0, 0] S128x64.size inb_S128x64_S128x64_0_0
abbrev ro0 : Rect S4096x64 := Rect.unit (s := S4096x64) ![0, 0] S4096x64.size inb_S4096x64_S4096x64_0_0

/-- The output block after the body: the product of the two loaded blocks, stored whole. -/
def out0_2 (x0 : Vec F S4096x128 .f32) (x1 : Vec F S128x64 .f32) : Vec F S4096x64 .bf16 :=
  View.canon [⟨ro0, k0_pay1 (View.ld x0 rx0) (View.ld x1 rw0)⟩]

theorem cover0_2 (p0 : Vec F S4096x64 .bf16) (y : S4096x64.Idx) :
    ∃ pc ∈ ([⟨ro0, p0⟩] : List (View.Piece (Elt F) S4096x64 .bf16)), y ∈ pc.1.set :=
  View.cover_of_tiled [⟨ro0, p0⟩] S4096x64.size (by rfl) y

/-- The body on whole blocks: the inputs keep their contents and the output block ends at their product. -/
theorem sound_kernel0 (c : Dev nD) (E : Set ℕ) (i : grid0.Coords) (arg1 : Memref sig .tc .vmem S4096x128 .f32) (harg1 : arg1.IsWhole)
    (arg2 : Memref sig .tc .vmem S128x64 .f32) (harg2 : arg2.IsWhole) (arg3 : Memref sig .tc .vmem S4096x64 .bf16) (harg3 : arg3.IsWhole)
    (x0 : Vec F S4096x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__hw_kernel i arg1 harg1 arg2 harg2 arg3 harg3) K := by
  simp only [cc0__hw_kernel_eq_skeleton]; unfold cc0__hw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe; ipureintro; rfl
  isplitl [H1]; · iexists f1; iframe; ipureintro; rfl
  iexists _; iframe; ipureintro
  exact View.read_writes_eq_canon _ _ _ (cover0_2 _)

/-- The region's data at the entry contents `V`: each point leaves its input blocks as read and the product in its output block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KernelIdeal.Hw2.lean ====
import proofs.«137875_j10720238371126_1_alg».proof.Proof.Gen.KernelIdeal.Launch
import proofs.«137875_j10720238371126_1_alg».proof.Proof.Gen.KernelIdeal.Skeleton
import proofs.«137875_j10720238371126_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev rx2 : Rect S4096x64 := Rect.unit (s := S4096x64) ![0, 0] S4096x64.size inb_S4096x64_S4096x64_0_0
abbrev rw2 : Rect S64x64 := Rect.unit (s := S64x64) ![0, 0] S64x64.size inb_S64x64_S64x64_0_0
abbrev ro2 : Rect S4096x64 := Rect.unit (s := S4096x64) ![0, 0] S4096x64.size inb_S4096x64_S4096x64_0_0

/-- The output block after the body: the product of the two loaded blocks, stored whole. -/
def out2_2 (x0 : Vec F S4096x64 .f32) (x1 : Vec F S64x64 .f32) : Vec F S4096x64 .bf16 :=
  View.canon [⟨ro2, k2_pay1 (View.ld x0 rx2) (View.ld x1 rw2)⟩]

theorem cover2_2 (p0 : Vec F S4096x64 .bf16) (y : S4096x64.Idx) :
    ∃ pc ∈ ([⟨ro2, p0⟩] : List (View.Piece (Elt F) S4096x64 .bf16)), y ∈ pc.1.set :=
  View.cover_of_tiled [⟨ro2, p0⟩] S4096x64.size (by rfl) y

/-- The body on whole blocks: the inputs keep their contents and the output block ends at their product. -/
theorem sound_kernel2 (c : Dev nD) (E : Set ℕ) (i : grid2.Coords) (arg1 : Memref sig .tc .vmem S4096x64 .f32) (harg1 : arg1.IsWhole)
    (arg2 : Memref sig .tc .vmem S64x64 .f32) (harg2 : arg2.IsWhole) (arg3 : Memref sig .tc .vmem S4096x64 .bf16) (harg3 : arg3.IsWhole)
    (x0 : Vec F S4096x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__hw_kernel i arg1 harg1 arg2 harg2 arg3 harg3) K := by
  simp only [cc2__hw_kernel_eq_skeleton]; unfold cc2__hw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe; ipureintro; rfl
  isplitl [H1]; · iexists f1; iframe; ipureintro; rfl
  iexists _; iframe; ipureintro
  exact View.read_writes_eq_canon _ _ _ (cover2_2 _)

/-- The region's data at the entry contents `V`: each point leaves its input blocks as read and the product in its output block. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KernelIdeal.Hw4.lean ====
import proofs.«137875_j10720238371126_1_alg».proof.Proof.KernelIdeal.Hw2

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Regions 2 and 4 run one body. -/
theorem hw4_eq : cc4__hw_kernel (F := F) = cc2__hw_kernel := rfl

/-- The region's data at the entry contents `V`: each point leaves its input blocks as read and the product in its output block. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out2_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out2_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [hw4_eq]
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel2 c Set.univ _ _ _ _ _ _ _ (iblk4 V c 0 t) (iblk4 V c 1 t) _)
  iframe
  isplitl [H2]; · iexists _; iexact H2
  iintro ⟨H0, H1, H2⟩
  iframe

theorem body_obligation4 (c : Dev nD) : BodyObligation (dat4 (F := F) V c) (defs₀ (F := F)) Variants.none () Set.univ := fun t => by
  rw [bigSep_W4, bigSep_W4]
  exact sound_body4 V c t

end

end Cert.KernelIdeal.Hand

end
-- ==== Proof.KernelIdeal.Hw6.lean ====
import proofs.«137875_j10720238371126_1_alg».proof.Proof.Gen.KernelIdeal.Launch
import proofs.«137875_j10720238371126_1_alg».proof.Proof.Gen.KernelIdeal.Skeleton
import proofs.«137875_j10720238371126_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev rx6 : Rect S4096x64 := Rect.unit (s := S4096x64) ![0, 0] S4096x64.size inb_S4096x64_S4096x64_0_0
abbrev rw6 : Rect S64x16 := Rect.unit (s := S64x16) ![0, 0] S64x16.size inb_S64x16_S64x16_0_0
abbrev ro6 : Rect S4096x16 := Rect.unit (s := S4096x16) ![0, 0] S4096x16.size inb_S4096x16_S4096x16_0_0

/-- The output block after the body: the product of the two loaded blocks, stored whole. -/
def out6_2 (x0 : Vec F S4096x64 .f32) (x1 : Vec F S64x16 .f32) : Vec F S4096x16 .bf16 :=
  View.canon [⟨ro6, k6_pay1 (View.ld x0 rx6) (View.ld x1 rw6)⟩]

theorem cover6_2 (p0 : Vec F S4096x16 .bf16) (y : S4096x16.Idx) :
    ∃ pc ∈ ([⟨ro6, p0⟩] : List (View.Piece (Elt F) S4096x16 .bf16)), y ∈ pc.1.set :=
  View.cover_of_tiled [⟨ro6, p0⟩] S4096x16.size (by rfl) y

/-- The body on whole blocks: the inputs keep their contents and the output block ends at their product. -/
theorem sound_kernel6 (c : Dev nD) (E : Set ℕ) (i : grid6.Coords) (arg1 : Memref sig .tc .vmem S4096x64 .f32) (harg1 : arg1.IsWhole)
    (arg2 : Memref sig .tc .vmem S64x16 .f32) (harg2 : arg2.IsWhole) (arg3 : Memref sig .tc .vmem S4096x16 .bf16) (harg3 : arg3.IsWhole)
    (x0 : Vec F S4096x64 .f32) (x1 : Vec F S64x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__hw_kernel i arg1 harg1 arg2 harg2 arg3 harg3) K := by
  simp only [cc6__hw_kernel_eq_skeleton]; unfold cc6__hw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]; · iexists f0; iframe; ipureintro; rfl
  isplitl [H1]; · iexists f1; iframe; ipureintro; rfl
  iexists _; iframe; ipureintro
  exact View.read_writes_eq_canon _ _ _ (cover6_2 _)

/-- The region's data at the entry contents `V`: each point leaves its input blocks as read and the product in its output block. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  iframe
  isplitl [H2]; · iexists _; iexact H2
  iintro ⟨H0, H1, H2⟩
  iframe

theorem body_obligation6 (c : Dev nD) : BodyObligation (dat6 (F := F) V c) (defs₀ (F := F)) Variants.none () Set.univ := fun t => by
  rw [bigSep_W6, bigSep_W6]
  exact sound_body6 V c t

end

end Cert.KernelIdeal.Hand

end
-- ==== Proof.KernelIdeal.AggBody1.lean ====
import proofs.«137875_j10720238371126_1_alg».proof.Proof.Gen.KernelIdeal.Launch
import proofs.«137875_j10720238371126_1_alg».proof.Proof.Gen.KernelIdeal.Skeleton
import proofs.«137875_j10720238371126_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

theorem hzero1 : (![0, 0] : Fin 2 → ℕ) = fun _ => 0 := by funext a; fin_cases a <;> rfl

theorem cover_head1 (w : Vec F S2048x64 .f32) (L : List (View.Piece (Elt F) S2048x64 .f32)) (y : S2048x64.Idx) :
    ∃ p ∈ ((⟨Rect.unit (s := S2048x64) ![0, 0] S2048x64.size inb_S2048x64_S2048x64_0_0, w⟩ : View.Piece (Elt F) S2048x64 .f32) :: L), y ∈ p.1.set :=
  ⟨_, List.mem_cons.mpr (Or.inl rfl), View.mem_set_unit_zero hzero1 inb_S2048x64_S2048x64_0_0 y⟩

abbrev condA1 (i : grid1.Coords) : Prop := (Scalar.cmpi .ne (Scalar.extui (Scalar.cmpi .eq (BitVec.ofNat 32 (i 1).val) 0#32)) 0#32) = 1#1
abbrev condB1 (i : grid1.Coords) : Prop := k1_cond2 i = 1#1

/-- The accumulator after a point: restarted from zero where `pA` holds, it gains the product of the point's two blocks. -/
abbrev acc1 (pA : Prop) [Decidable pA] (xs : Vec F S2048x64 .f32) (x0 : Vec F S2048x4096 .bf16) (x1 : Vec F S4096x64 .bf16) : Vec F S2048x64 .f32 :=
  k1_pay2 (if pA then k1_pay1 (F := F) else xs) x0 x1

/-- The body at one point, its two branch conditions read as `pA` (a first column block) and `pB` (a last one): the
    accumulator is updated, and where `pB` holds the output block becomes the accumulator plus the bias row. -/
theorem sound_kernel1 (c : Dev nD) (E : Set ℕ) (i : grid1.Coords)
    (arg2 : Memref sig .tc .vmem S2048x4096 .bf16) (harg2 : arg2.IsWhole) (arg3 : Memref sig .tc .vmem S4096x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (x0 : Vec F S2048x4096 .bf16) (x1 : Vec F S4096x64 .bf16) (xb : Vec F S1x64 .f32) (xo xs : Vec F S2048x64 .f32)
    (pA pB : Prop) [Decidable pA] [Decidable pB] (hA : pA ↔ condA1 i) (hB : pB ↔ condB1 i) (hAB : ¬(pA ∧ pB)) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare (if pB then k1_pay3 (acc1 pA xs x0 x1) xb else xo)
            ∗ owns (c : Thread nD τ) arg6 fullShare (acc1 pA xs x0 x1)) -∗ K ⟨⟩))
      ⊢ wp frame (wpE (defs₀ (F := F)) Variants.none c none) E (cc1__gcn_agg_kernel i arg2 harg2 arg3 harg3 arg4 harg4 arg5 harg5 arg6 harg6) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  by_cases hp0 : pA <;> by_cases hp1 : pB
  · exact (hAB ⟨hp0, hp1⟩).elim
  all_goals
    have hc0 := hp0; have hc1 := hp1
    rw [hA] at hc0; rw [hB] at hc1
    sl_exec (disch := first | exact hc0 | exact hc1)
    sl_step
    iapply Hk
    isplitl [H0]; · iexists f0; iframe; ipureintro; rfl
    isplitl [H1]; · iexists f1; iframe; ipureintro; rfl
    isplitl [H2]; · iexists f2; iframe; ipureintro; rfl
    isplitl [H3]
    · iexists _; iframe; ipureintro
      first
        | rw [if_neg hp1]
        | (rw [if_pos hp1]; unfold acc1
           first | rw [if_pos hp0] | rw [if_neg hp0]
           sl_unfold_run_names
           refine (View.read_writes_eq_canon _ _ _ (cover_head1 _ _)).trans ?_
           rw [View.canon_cons_unit_zero (S := S2048x64) hzero1]
           simp only [View.readAt_eq_ld, View.ld_unit_zero (S := S2048x4096) hzero1, View.ld_unit_zero (S := S4096x64) hzero1,
             View.ld_unit_zero (S := S2048x64) hzero1, View.ld_unit_zero (S := S1x64) hzero1, View.readCov_unit_zero (S := S2048x64) _ hzero1])
    iexists _; iframe; ipureintro
    unfold acc1
    first | rw [if_pos hp0] | rw [if_neg hp0]
    sl_unfold_run_names
    refine (View.read_writes_eq_canon _ _ _ (cover_head1 _ _)).trans ?_
    rw [View.canon_cons_unit_zero (S := S2048x64) hzero1]
    simp only [View.readAt_eq_ld, View.ld_unit_zero (S := S2048x4096) hzero1, View.ld_unit_zero (S := S4096x64) hzero1,
      View.ld_unit_zero (S := S2048x64) hzero1, View.readCov_unit_zero (S := S2048x64) _ hzero1]

end Cert.KernelIdeal.Hand

end
-- ==== Proof.KernelIdeal.Agg1.lean ====
import proofs.«137875_j10720238371126_1_alg».proof.Proof.KernelIdeal.AggBody1

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

theorem hcondA1 : ∀ t : Fin cfg1.N, t.val % 4 = 0 ↔ condA1 (grid1.coords t) :=
  (by decide +kernel : ∀ t : Fin grid1.N, t.val % 4 = 0 ↔ condA1 (grid1.coords t))
theorem hcondB1 : ∀ t : Fin cfg1.N, t.val % 4 = 3 ↔ condB1 (grid1.coords t) :=
  (by decide +kernel : ∀ t : Fin grid1.N, t.val % 4 = 3 ↔ condB1 (grid1.coords t))

theorem idleAt1_3 : ∀ t : Fin cfg1.N, ¬ t.val % 4 = 3 → cfg1.idle 3 (grid1.coords t) = true := by decide +kernel
theorem noFlush1_3 : ∀ t : Fin cfg1.N, ¬ t.val % 4 = 3 → (cfg1.win 3).flush t = false := by decide +kernel
theorem liveAt1_3 : ∀ t : Fin cfg1.N, t.val % 4 = 3 → cfg1.idle 3 (grid1.coords t) = false := by decide +kernel

abbrev scM1 : Memref sig .tc .vmem S2048x64 .f32 := Memref.whole cc1_scratch0

section
variable (V : (c : Dev nD) → (b : Ref sig .tc) → Buf (Elt F) ((c : Thread nD τ).loc b))

/-- The accumulator after point `n`: at a first column block zero plus the point's product, else what the point before left plus the product. -/
def accAt1 (c : Dev nD) : (n : ℕ) → n < cfg1.N → Vec F S2048x64 .f32
  | 0, hn => k1_pay2 (k1_pay1 (F := F)) (iblk1 V c 0 ⟨0, hn⟩) (iblk1 V c 1 ⟨0, hn⟩)
  | n + 1, hn =>
    if (n + 1) % 4 = 0 then k1_pay2 (k1_pay1 (F := F)) (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

theorem accAt1_A (c : Dev nD) (t : Fin cfg1.N) (h : t.val % 4 = 0) :
    accAt1 V c t.val t.isLt = k1_pay2 (k1_pay1 (F := F)) (iblk1 V c 0 t) (iblk1 V c 1 t) := by
  obtain ⟨n, hn⟩ := t
  cases n with
  | zero => rfl
  | succ n => exact if_pos h

theorem accAt1_B (c : Dev nD) (t : Fin cfg1.N) (h : ¬ t.val % 4 = 0) :
    accAt1 V c t.val t.isLt
      = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scM1, owns_whole]; try rfl

/-- Between points the scratch holds the accumulator the point before left (before the first point, anything). -/
def PhiS1 (c : Dev nD) (n : ℕ) (hn : n ≤ cfg1.N) : sProp 𝕄 :=
  iprop(∃ xs, ⌜(h : n ≠ 0) → xs = accAt1 V c (n - 1) (by omega)⌝ ∗ owns (c : Thread nD τ) scM1 fullShare xs
    ∗ Pipeline.scopedRestBut (Ix := Unit) (Name := ℕ) (U := UR sig nD τ) (Lvl := ℕ) (Val := Elt F) spec1 c [cc1_scratch0]
    ∗ (∃ r, prngReg c r))

/-- The region's data at the entry contents `V`: the output block of a last column block is the accumulator plus the bias row. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- One step of the body is one step of the accumulator. -/
theorem acc1_eq (c : Dev nD) (t : Fin cfg1.N) (xs : Vec F S2048x64 .f32)
    (hxs : (h : t.val ≠ 0) → xs = accAt1 V c (t.val - 1) (Nat.lt_of_le_of_lt (Nat.sub_le _ _) t.isLt)) :
    acc1 (t.val % 4 = 0) xs (iblk1 V c 0 t) (iblk1 V c 1 t) = accAt1 V c t.val t.isLt := by
  unfold acc1
  by_cases h0 : t.val % 4 = 0
  · rw [if_pos h0, accAt1_A V c t h0]
  · rw [if_neg h0, accAt1_B V c t h0, hxs fun e => h0 (by rw [e])]

/-- The output block is written at a last column block and left as found elsewhere. -/
theorem leaves1_3 (c : Dev nD) (t : Fin cfg1.N) (d) :
    owns (c : Thread nD τ) (st1_3 t) fullShare
        (if t.val % 4 = 3 then k1_pay3 (accAt1 V c t.val t.isLt) (iblk1 V c 2 t) else (dat1 V c).before 3 t d)
      ⊢ (dat1 V c).leavesExact 3 t := by
  by_cases h3 : t.val % 4 = 3
  · rw [if_pos h3]; unfold Dat.leavesExact; rw [liveAt1_3 t h3, after1_3]
  · rw [if_neg h3, Dat.leavesExact_idle (dat1 V c) 3 t (idleAt1_3 t h3) (noFlush1_3 t h3)]
    iintro H; iexists d; iexact H

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl,
    show (dat1 V c).Φ t.castSucc = PhiS1 V c t.val (Nat.le_of_lt t.isLt) from rfl]
  unfold PhiS1
  iintro ⟨⟨%xs, %hxs, HS, Hrest, Hg⟩, Ho, ⟨%d0, H0⟩, ⟨%d1, H1⟩, ⟨%d2, H2⟩, ⟨%d3, H3⟩⟩
  iapply (sound_kernel1 c Set.univ (grid1.coords t) _ _ _ _ _ _ _ _ _ _ (iblk1 V c 0 t) (iblk1 V c 1 t) (iblk1 V c 2 t) _ xs
    (t.val % 4 = 0) (t.val % 4 = 3) (hcondA1 t) (hcondB1 t) (by omega) _)
  iframe H0 H1 H2 H3 HS
  iintro ⟨H0, H1, H2, H3, HS⟩
  rw [acc1_eq V c t xs hxs]
  isplitl [HS Hrest Hg]
  · iexists _; iframe; ipureintro; exact fun _ => rfl
  iframe
  iapply leaves1_3 V c t d3
  iexact H3

theorem body_obligation1 (c : Dev nD) : BodyObligation (dat1 (F := F) V c) (defs₀ (F := F)) Variants.none () Set.univ := fun t => by
  rw [bigSep_W1, bigSep_W1]
  exact sound_body1 V c t

theorem Phi_first1 (c : Dev nD) : Pipeline.ΦA spec1 c ⊢ (dat1 V c).Φ 0 := by
  rw [PhiA1_eq]; dsimp only [dat1]; unfold PhiS1
  iintro ⟨⟨⟨%d, HS⟩, Hrest⟩, Hg⟩
  iexists d; iframe; ipureintro; exact fun h => absurd rfl h

theorem Phi_last1 (c : Dev nD) : (dat1 V c).Φ (Fin.last cfg1.N) ⊢ Pipeline.ΦA spec1 c := by
  rw [PhiA1_eq]; dsimp only [dat1]; unfold PhiS1
  iintro ⟨%xs, -, HS, Hrest, Hg⟩
  iframe; iexists xs; iexact HS

end

end Cert.KernelIdeal.Hand

end
-- ==== Proof.KernelIdeal.Agg3.lean ====
import proofs.«137875_j10720238371126_1_alg».proof.Proof.KernelIdeal.AggBody1

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end

theorem hcondA3 : ∀ t : Fin cfg3.N, t.val % 4 = 0 ↔ condA1 (grid3.coords t) :=
  (by decide +kernel : ∀ t : Fin grid3.N, t.val % 4 = 0 ↔ condA1 (grid3.coords t))
theorem hcondB3 : ∀ t : Fin cfg3.N, t.val % 4 = 3 ↔ condB1 (grid3.coords t) :=
  (by decide +kernel : ∀ t : Fin grid3.N, t.val % 4 = 3 ↔ condB1 (grid3.coords t))

theorem idleAt3_3 : ∀ t : Fin cfg3.N, ¬ t.val % 4 = 3 → cfg3.idle 3 (grid3.coords t) = true := by decide +kernel
theorem noFlush3_3 : ∀ t : Fin cfg3.N, ¬ t.val % 4 = 3 → (cfg3.win 3).flush t = false := by decide +kernel
theorem liveAt3_3 : ∀ t : Fin cfg3.N, t.val % 4 = 3 → cfg3.idle 3 (grid3.coords t) = false := by decide +kernel

/-- Regions 1, 3 and 5 run one body. -/
theorem agg3_eq : cc3__gcn_agg_kernel (F := F) = cc1__gcn_agg_kernel := rfl

abbrev scM3 : Memref sig .tc .vmem S2048x64 .f32 := Memref.whole cc3_scratch0

section
variable (V : (c : Dev nD) → (b : Ref sig .tc) → Buf (Elt F) ((c : Thread nD τ).loc b))

/-- The accumulator after point `n`: at a first column block zero plus the point's product, else what the point before left plus the product. -/
def accAt3 (c : Dev nD) : (n : ℕ) → n < cfg3.N → Vec F S2048x64 .f32
  | 0, hn => k1_pay2 (k1_pay1 (F := F)) (iblk3 V c 0 ⟨0, hn⟩) (iblk3 V c 1 ⟨0, hn⟩)
  | n + 1, hn =>
    if (n + 1) % 4 = 0 then k1_pay2 (k1_pay1 (F := F)) (iblk3 V c 0 ⟨n + 1, hn⟩) (iblk3 V c 1 ⟨n + 1, hn⟩)
    else k1_pay2 (accAt3 c n (Nat.lt_of_succ_lt hn)) (iblk3 V c 0 ⟨n + 1, hn⟩) (iblk3 V c 1 ⟨n + 1, hn⟩)

theorem accAt3_A (c : Dev nD) (t : Fin cfg3.N) (h : t.val % 4 = 0) :
    accAt3 V c t.val t.isLt = k1_pay2 (k1_pay1 (F := F)) (iblk3 V c 0 t) (iblk3 V c 1 t) := by
  obtain ⟨n, hn⟩ := t
  cases n with
  | zero => rfl
  | succ n => exact if_pos h

theorem accAt3_B (c : Dev nD) (t : Fin cfg3.N) (h : ¬ t.val % 4 = 0) :
    accAt3 V c t.val t.isLt
      = k1_pay2 (accAt3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h
  | succ n => exact if_neg h

theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
        ∗ (∃ r, prngReg c r)) := by
  unfold Pipeline.ΦA; rw [scopedRest3_split]; simp only [scM3, owns_whole]; try rfl

/-- Between points the scratch holds the accumulator the point before left (before the first point, anything). -/
def PhiS3 (c : Dev nD) (n : ℕ) (hn : n ≤ cfg3.N) : sProp 𝕄 :=
  iprop(∃ xs, ⌜(h : n ≠ 0) → xs = accAt3 V c (n - 1) (by omega)⌝ ∗ owns (c : Thread nD τ) scM3 fullShare xs
    ∗ Pipeline.scopedRestBut (Ix := Unit) (Name := ℕ) (U := UR sig nD τ) (Lvl := ℕ) (Val := Elt F) spec3 c [cc3_scratch0]
    ∗ (∃ r, prngReg c r))

/-- The region's data at the entry contents `V`: the output block of a last column block is the accumulator plus the bias row. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k1_pay3 (accAt3 V c t.val t.isLt) (iblk3 V c 2 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k1_pay3 (accAt3 V c t.val t.isLt) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- One step of the body is one step of the accumulator. -/
theorem acc3_eq (c : Dev nD) (t : Fin cfg3.N) (xs : Vec F S2048x64 .f32)
    (hxs : (h : t.val ≠ 0) → xs = accAt3 V c (t.val - 1) (Nat.lt_of_le_of_lt (Nat.sub_le _ _) t.isLt)) :
    acc1 (t.val % 4 = 0) xs (iblk3 V c 0 t) (iblk3 V c 1 t) = accAt3 V c t.val t.isLt := by
  unfold acc1
  by_cases h0 : t.val % 4 = 0
  · rw [if_pos h0, accAt3_A V c t h0]
  · rw [if_neg h0, accAt3_B V c t h0, hxs fun e => h0 (by rw [e])]

/-- The output block is written at a last column block and left as found elsewhere. -/
theorem leaves3_3 (c : Dev nD) (t : Fin cfg3.N) (d) :
    owns (c : Thread nD τ) (st3_3 t) fullShare
        (if t.val % 4 = 3 then k1_pay3 (accAt3 V c t.val t.isLt) (iblk3 V c 2 t) else (dat3 V c).before 3 t d)
      ⊢ (dat3 V c).leavesExact 3 t := by
  by_cases h3 : t.val % 4 = 3
  · rw [if_pos h3]; unfold Dat.leavesExact; rw [liveAt3_3 t h3, after3_3]
  · rw [if_neg h3, Dat.leavesExact_idle (dat3 V c) 3 t (idleAt3_3 t h3) (noFlush3_3 t h3)]
    iintro H; iexists d; iexact H

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare (iblk3 V c 0 t)
    ∗ owns (c : Thread nD τ) (st3_1 t) fullShare (iblk3 V c 1 t)
    ∗ owns (c : Thread nD τ) (st3_2 t) fullShare (iblk3 V c 2 t)
    ∗ (dat3 V c).leavesExact 3 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [agg3_eq]
  simp only [before3_0, before3_1, before3_2]
  rw [show (dat3 V c).owesAt () t.succ = (dat3 V c).owesAt () t.castSucc from rfl,
    show (dat3 V c).Φ t.succ = PhiS3 V c (t.val + 1) t.isLt from rfl,
    show (dat3 V c).Φ t.castSucc = PhiS3 V c t.val (Nat.le_of_lt t.isLt) from rfl]
  unfold PhiS3
  iintro ⟨⟨%xs, %hxs, HS, Hrest, Hg⟩, Ho, ⟨%d0, H0⟩, ⟨%d1, H1⟩, ⟨%d2, H2⟩, ⟨%d3, H3⟩⟩
  iapply (sound_kernel1 c Set.univ (grid3.coords t) _ _ _ _ _ _ _ _ _ _ (iblk3 V c 0 t) (iblk3 V c 1 t) (iblk3 V c 2 t) _ xs
    (t.val % 4 = 0) (t.val % 4 = 3) (hcondA3 t) (hcondB3 t) (by omega) _)
  iframe H0 H1 H2 H3 HS
  iintro ⟨H0, H1, H2, H3, HS⟩
  rw [acc3_eq V c t xs hxs]
  isplitl [HS Hrest Hg]
  · iexists _; iframe; ipureintro; exact fun _ => rfl
  iframe
  iapply leaves3_3 V c t d3
  iexact H3

theorem body_obligation3 (c : Dev nD) : BodyObligation (dat3 (F := F) V c) (defs₀ (F := F)) Variants.none () Set.univ := fun t => by
  rw [bigSep_W3, bigSep_W3]
  exact sound_body3 V c t

theorem Phi_first3 (c : Dev nD) : Pipeline.ΦA spec3 c ⊢ (dat3 V c).Φ 0 := by
  rw [PhiA3_eq]; dsimp only [dat3]; unfold PhiS3
  iintro ⟨⟨⟨%d, HS⟩, Hrest⟩, Hg⟩
  iexists d; iframe; ipureintro; exact fun h => absurd rfl h

theorem Phi_last3 (c : Dev nD) : (dat3 V c).Φ (Fin.last cfg3.N) ⊢ Pipeline.ΦA spec3 c := by
  rw [PhiA3_eq]; dsimp only [dat3]; unfold PhiS3
  iintro ⟨%xs, -, HS, Hrest, Hg⟩
  iframe; iexists xs; iexact HS

end

end Cert.KernelIdeal.Hand

end
-- ==== Proof.KernelIdeal.Agg5.lean ====
import proofs.«137875_j10720238371126_1_alg».proof.Proof.KernelIdeal.AggBody1

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

end

theorem hcondA5 : ∀ t : Fin cfg5.N, t.val % 4 = 0 ↔ condA1 (grid5.coords t) :=
  (by decide +kernel : ∀ t : Fin grid5.N, t.val % 4 = 0 ↔ condA1 (grid5.coords t))
theorem hcondB5 : ∀ t : Fin cfg5.N, t.val % 4 = 3 ↔ condB1 (grid5.coords t) :=
  (by decide +kernel : ∀ t : Fin grid5.N, t.val % 4 = 3 ↔ condB1 (grid5.coords t))

theorem idleAt5_3 : ∀ t : Fin cfg5.N, ¬ t.val % 4 = 3 → cfg5.idle 3 (grid5.coords t) = true := by decide +kernel
theorem noFlush5_3 : ∀ t : Fin cfg5.N, ¬ t.val % 4 = 3 → (cfg5.win 3).flush t = false := by decide +kernel
theorem liveAt5_3 : ∀ t : Fin cfg5.N, t.val % 4 = 3 → cfg5.idle 3 (grid5.coords t) = false := by decide +kernel

/-- Regions 1, 3 and 5 run one body. -/
theorem agg5_eq : cc5__gcn_agg_kernel (F := F) = cc1__gcn_agg_kernel := rfl

abbrev scM5 : Memref sig .tc .vmem S2048x64 .f32 := Memref.whole cc5_scratch0

section
variable (V : (c : Dev nD) → (b : Ref sig .tc) → Buf (Elt F) ((c : Thread nD τ).loc b))

/-- The accumulator after point `n`: at a first column block zero plus the point's product, else what the point before left plus the product. -/
def accAt5 (c : Dev nD) : (n : ℕ) → n < cfg5.N → Vec F S2048x64 .f32
  | 0, hn => k1_pay2 (k1_pay1 (F := F)) (iblk5 V c 0 ⟨0, hn⟩) (iblk5 V c 1 ⟨0, hn⟩)
  | n + 1, hn =>
    if (n + 1) % 4 = 0 then k1_pay2 (k1_pay1 (F := F)) (iblk5 V c 0 ⟨n + 1, hn⟩) (iblk5 V c 1 ⟨n + 1, hn⟩)
    else k1_pay2 (accAt5 c n (Nat.lt_of_succ_lt hn)) (iblk5 V c 0 ⟨n + 1, hn⟩) (iblk5 V c 1 ⟨n + 1, hn⟩)

theorem accAt5_A (c : Dev nD) (t : Fin cfg5.N) (h : t.val % 4 = 0) :
    accAt5 V c t.val t.isLt = k1_pay2 (k1_pay1 (F := F)) (iblk5 V c 0 t) (iblk5 V c 1 t) := by
  obtain ⟨n, hn⟩ := t
  cases n with
  | zero => rfl
  | succ n => exact if_pos h

theorem accAt5_B (c : Dev nD) (t : Fin cfg5.N) (h : ¬ t.val % 4 = 0) :
    accAt5 V c t.val t.isLt
      = k1_pay2 (accAt5 V c (t.val - 1) (Nat.lt_of_le_of_lt (Nat.sub_le _ _) t.isLt)) (iblk5 V c 0 t) (iblk5 V c 1 t) := by
  obtain ⟨n, hn⟩ := t
  cases n with
  | zero => exact absurd (Nat.zero_mod _) h
  | succ n => exact if_neg h

theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0])
        ∗ (∃ r, prngReg c r)) := by
  unfold Pipeline.ΦA; rw [scopedRest5_split]; simp only [scM5, owns_whole]; try rfl

/-- Between points the scratch holds the accumulator the point before left (before the first point, anything). -/
def PhiS5 (c : Dev nD) (n : ℕ) (hn : n ≤ cfg5.N) : sProp 𝕄 :=
  iprop(∃ xs, ⌜(h : n ≠ 0) → xs = accAt5 V c (n - 1) (by omega)⌝ ∗ owns (c : Thread nD τ) scM5 fullShare xs
    ∗ Pipeline.scopedRestBut (Ix := Unit) (Name := ℕ) (U := UR sig nD τ) (Lvl := ℕ) (Val := Elt F) spec5 c [cc5_scratch0]
    ∗ (∃ r, prngReg c r))

/-- The region's data at the entry contents `V`: the output block of a last column block is the accumulator plus the bias row. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k1_pay3 (accAt5 V c t.val t.isLt) (iblk5 V c 2 t)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = k1_pay3 (accAt5 V c t.val t.isLt) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- One step of the body is one step of the accumulator. -/
theorem acc5_eq (c : Dev nD) (t : Fin cfg5.N) (xs : Vec F S2048x64 .f32)
    (hxs : (h : t.val ≠ 0) → xs = accAt5 V c (t.val - 1) (Nat.lt_of_le_of_lt (Nat.sub_le _ _) t.isLt)) :
    acc1 (t.val % 4 = 0) xs (iblk5 V c 0 t) (iblk5 V c 1 t) = accAt5 V c t.val t.isLt := by
  unfold acc1
  by_cases h0 : t.val % 4 = 0
  · rw [if_pos h0, accAt5_A V c t h0]
  · rw [if_neg h0, accAt5_B V c t h0, hxs fun e => h0 (by rw [e])]

/-- The output block is written at a last column block and left as found elsewhere. -/
theorem leaves5_3 (c : Dev nD) (t : Fin cfg5.N) (d) :
    owns (c : Thread nD τ) (st5_3 t) fullShare
        (if t.val % 4 = 3 then k1_pay3 (accAt5 V c t.val t.isLt) (iblk5 V c 2 t) else (dat5 V c).before 3 t d)
      ⊢ (dat5 V c).leavesExact 3 t := by
  by_cases h3 : t.val % 4 = 3
  · rw [if_pos h3]; unfold Dat.leavesExact; rw [liveAt5_3 t h3, after5_3]
  · rw [if_neg h3, Dat.leavesExact_idle (dat5 V c) 3 t (idleAt5_3 t h3) (noFlush5_3 t h3)]
    iintro H; iexists d; iexact H

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare (iblk5 V c 0 t)
    ∗ owns (c : Thread nD τ) (st5_1 t) fullShare (iblk5 V c 1 t)
    ∗ owns (c : Thread nD τ) (st5_2 t) fullShare (iblk5 V c 2 t)
    ∗ (dat5 V c).leavesExact 3 t)

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [agg5_eq]
  simp only [before5_0, before5_1, before5_2]
  rw [show (dat5 V c).owesAt () t.succ = (dat5 V c).owesAt () t.castSucc from rfl,
    show (dat5 V c).Φ t.succ = PhiS5 V c (t.val + 1) t.isLt from rfl,
    show (dat5 V c).Φ t.castSucc = PhiS5 V c t.val (Nat.le_of_lt t.isLt) from rfl]
  unfold PhiS5
  iintro ⟨⟨%xs, %hxs, HS, Hrest, Hg⟩, Ho, ⟨%d0, H0⟩, ⟨%d1, H1⟩, ⟨%d2, H2⟩, ⟨%d3, H3⟩⟩
  iapply (sound_kernel1 c Set.univ (grid5.coords t) _ _ _ _ _ _ _ _ _ _ (iblk5 V c 0 t) (iblk5 V c 1 t) (iblk5 V c 2 t) _ xs
    (t.val % 4 = 0) (t.val % 4 = 3) (hcondA5 t) (hcondB5 t) (by omega) _)
  iframe H0 H1 H2 H3 HS
  iintro ⟨H0, H1, H2, H3, HS⟩
  rw [acc5_eq V c t xs hxs]
  isplitl [HS Hrest Hg]
  · iexists _; iframe; ipureintro; exact fun _ => rfl
  iframe
  iapply leaves5_3 V c t d3
  iexact H3

theorem body_obligation5 (c : Dev nD) : BodyObligation (dat5 (F := F) V c) (defs₀ (F := F)) Variants.none () Set.univ := fun t => by
  rw [bigSep_W5, bigSep_W5]
  exact sound_body5 V c t

theorem Phi_first5 (c : Dev nD) : Pipeline.ΦA spec5 c ⊢ (dat5 V c).Φ 0 := by
  rw [PhiA5_eq]; dsimp only [dat5]; unfold PhiS5
  iintro ⟨⟨⟨%d, HS⟩, Hrest⟩, Hg⟩
  iexists d; iframe; ipureintro; exact fun h => absurd rfl h

theorem Phi_last5 (c : Dev nD) : (dat5 V c).Φ (Fin.last cfg5.N) ⊢ Pipeline.ΦA spec5 c := by
  rw [PhiA5_eq]; dsimp only [dat5]; unfold PhiS5
  iintro ⟨%xs, -, HS, Hrest, Hg⟩
  iframe; iexists xs; iexact HS

end

end Cert.KernelIdeal.Hand

end
-- ==== Proof.KernelIdeal.AggBody7.lean ====
import proofs.«137875_j10720238371126_1_alg».proof.Proof.Gen.KernelIdeal.Launch
import proofs.«137875_j10720238371126_1_alg».proof.Proof.Gen.KernelIdeal.Skeleton
import proofs.«137875_j10720238371126_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

theorem hzero7 : (![0, 0] : Fin 2 → ℕ) = fun _ => 0 := by funext a; fin_cases a <;> rfl

theorem cover_head7 (w : Vec F S2048x16 .f32) (L : List (View.Piece (Elt F) S2048x16 .f32)) (y : S2048x16.Idx) :
    ∃ p ∈ ((⟨Rect.unit (s := S2048x16) ![0, 0] S2048x16.size inb_S2048x16_S2048x16_0_0, w⟩ : View.Piece (Elt F) S2048x16 .f32) :: L), y ∈ p.1.set :=
  ⟨_, List.mem_cons.mpr (Or.inl rfl), View.mem_set_unit_zero hzero7 inb_S2048x16_S2048x16_0_0 y⟩

abbrev condA7 (i : grid7.Coords) : Prop := (Scalar.cmpi .ne (Scalar.extui (Scalar.cmpi .eq (BitVec.ofNat 32 (i 1).val) 0#32)) 0#32) = 1#1
abbrev condB7 (i : grid7.Coords) : Prop := k7_cond2 i = 1#1

/-- The accumulator after a point: restarted from zero where `pA` holds, it gains the product of the point's two blocks. -/
abbrev acc7 (pA : Prop) [Decidable pA] (xs : Vec F S2048x16 .f32) (x0 : Vec F S2048x4096 .bf16) (x1 : Vec F S4096x16 .bf16) : Vec F S2048x16 .f32 :=
  k7_pay2 (if pA then k7_pay1 (F := F) else xs) x0 x1

/-- The body at one point, its two branch conditions read as `pA` (a first column block) and `pB` (a last one): the
    accumulator is updated, and where `pB` holds the output block becomes the accumulator plus the bias row. -/
theorem sound_kernel7 (c : Dev nD) (E : Set ℕ) (i : grid7.Coords)
    (arg2 : Memref sig .tc .vmem S2048x4096 .bf16) (harg2 : arg2.IsWhole) (arg3 : Memref sig .tc .vmem S4096x16 .bf16) (harg3 : arg3.IsWhole)
    (arg4 : Memref sig .tc .vmem S1x16 .f32) (harg4 : arg4.IsWhole) (arg5 : Memref sig .tc .vmem S2048x16 .f32) (harg5 : arg5.IsWhole)
    (arg6 : Memref sig .tc .vmem S2048x16 .f32) (harg6 : arg6.IsWhole)
    (x0 : Vec F S2048x4096 .bf16) (x1 : Vec F S4096x16 .bf16) (xb : Vec F S1x16 .f32) (xo xs : Vec F S2048x16 .f32)
    (pA pB : Prop) [Decidable pA] [Decidable pB] (hA : pA ↔ condA7 i) (hB : pB ↔ condB7 i) (hAB : ¬(pA ∧ pB)) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare (if pB then k7_pay3 (acc7 pA xs x0 x1) xb else xo)
            ∗ owns (c : Thread nD τ) arg6 fullShare (acc7 pA xs x0 x1)) -∗ K ⟨⟩))
      ⊢ wp frame (wpE (defs₀ (F := F)) Variants.none c none) E (cc7__gcn_agg_kernel i arg2 harg2 arg3 harg3 arg4 harg4 arg5 harg5 arg6 harg6) K := by
  simp only [cc7__gcn_agg_kernel_eq_skeleton]; unfold cc7__gcn_agg_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  by_cases hp0 : pA <;> by_cases hp1 : pB
  · exact (hAB ⟨hp0, hp1⟩).elim
  all_goals
    have hc0 := hp0; have hc1 := hp1
    rw [hA] at hc0; rw [hB] at hc1
    sl_exec (disch := first | exact hc0 | exact hc1)
    sl_step
    iapply Hk
    isplitl [H0]; · iexists f0; iframe; ipureintro; rfl
    isplitl [H1]; · iexists f1; iframe; ipureintro; rfl
    isplitl [H2]; · iexists f2; iframe; ipureintro; rfl
    isplitl [H3]
    · iexists _; iframe; ipureintro
      first
        | rw [if_neg hp1]
        | (rw [if_pos hp1]; unfold acc7
           first | rw [if_pos hp0] | rw [if_neg hp0]
           sl_unfold_run_names
           refine (View.read_writes_eq_canon _ _ _ (cover_head7 _ _)).trans ?_
           rw [View.canon_cons_unit_zero (S := S2048x16) hzero7]
           simp only [View.readAt_eq_ld, View.ld_unit_zero (S := S2048x4096) hzero7, View.ld_unit_zero (S := S4096x16) hzero7,
             View.ld_unit_zero (S := S2048x16) hzero7, View.ld_unit_zero (S := S1x16) hzero7, View.readCov_unit_zero (S := S2048x16) _ hzero7])
    iexists _; iframe; ipureintro
    unfold acc7
    first | rw [if_pos hp0] | rw [if_neg hp0]
    sl_unfold_run_names
    refine (View.read_writes_eq_canon _ _ _ (cover_head7 _ _)).trans ?_
    rw [View.canon_cons_unit_zero (S := S2048x16) hzero7]
    simp only [View.readAt_eq_ld, View.ld_unit_zero (S := S2048x4096) hzero7, View.ld_unit_zero (S := S4096x16) hzero7,
      View.ld_unit_zero (S := S2048x16) hzero7, View.readCov_unit_zero (S := S2048x16) _ hzero7]

end Cert.KernelIdeal.Hand

end
-- ==== Proof.KernelIdeal.Agg7.lean ====
import proofs.«137875_j10720238371126_1_alg».proof.Proof.KernelIdeal.AggBody7

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

end

theorem hcondA7 : ∀ t : Fin cfg7.N, t.val % 4 = 0 ↔ condA7 (grid7.coords t) :=
  (by decide +kernel : ∀ t : Fin grid7.N, t.val % 4 = 0 ↔ condA7 (grid7.coords t))
theorem hcondB7 : ∀ t : Fin cfg7.N, t.val % 4 = 3 ↔ condB7 (grid7.coords t) :=
  (by decide +kernel : ∀ t : Fin grid7.N, t.val % 4 = 3 ↔ condB7 (grid7.coords t))

theorem idleAt7_3 : ∀ t : Fin cfg7.N, ¬ t.val % 4 = 3 → cfg7.idle 3 (grid7.coords t) = true := by decide +kernel
theorem noFlush7_3 : ∀ t : Fin cfg7.N, ¬ t.val % 4 = 3 → (cfg7.win 3).flush t = false := by decide +kernel
theorem liveAt7_3 : ∀ t : Fin cfg7.N, t.val % 4 = 3 → cfg7.idle 3 (grid7.coords t) = false := by decide +kernel

abbrev scM7 : Memref sig .tc .vmem S2048x16 .f32 := Memref.whole cc7_scratch0

section
variable (V : (c : Dev nD) → (b : Ref sig .tc) → Buf (Elt F) ((c : Thread nD τ).loc b))

/-- The accumulator after point `n`: at a first column block zero plus the point's product, else what the point before left plus the product. -/
def accAt7 (c : Dev nD) : (n : ℕ) → n < cfg7.N → Vec F S2048x16 .f32
  | 0, hn => k7_pay2 (k7_pay1 (F := F)) (iblk7 V c 0 ⟨0, hn⟩) (iblk7 V c 1 ⟨0, hn⟩)
  | n + 1, hn =>
    if (n + 1) % 4 = 0 then k7_pay2 (k7_pay1 (F := F)) (iblk7 V c 0 ⟨n + 1, hn⟩) (iblk7 V c 1 ⟨n + 1, hn⟩)
    else k7_pay2 (accAt7 c n (Nat.lt_of_succ_lt hn)) (iblk7 V c 0 ⟨n + 1, hn⟩) (iblk7 V c 1 ⟨n + 1, hn⟩)

theorem accAt7_A (c : Dev nD) (t : Fin cfg7.N) (h : t.val % 4 = 0) :
    accAt7 V c t.val t.isLt = k7_pay2 (k7_pay1 (F := F)) (iblk7 V c 0 t) (iblk7 V c 1 t) := by
  obtain ⟨n, hn⟩ := t
  cases n with
  | zero => rfl
  | succ n => exact if_pos h

theorem accAt7_B (c : Dev nD) (t : Fin cfg7.N) (h : ¬ t.val % 4 = 0) :
    accAt7 V c t.val t.isLt
      = k7_pay2 (accAt7 V c (t.val - 1) (Nat.lt_of_le_of_lt (Nat.sub_le _ _) t.isLt)) (iblk7 V c 0 t) (iblk7 V c 1 t) := by
  obtain ⟨n, hn⟩ := t
  cases n with
  | zero => exact absurd (Nat.zero_mod _) h
  | succ n => exact if_neg h

theorem PhiA7_eq (c : Dev nD) :
    (Pipeline.ΦA spec7 c : sProp 𝕄)
      = iprop(iprop((∃ d, owns (c : Thread nD τ) scM7 fullShare d)
          ∗ Pipeline.scopedRestBut (Ix := Unit) (Name := ℕ) (U := UR sig nD τ) (Lvl := ℕ) (Val := Elt F) spec7 c [cc7_scratch0])
        ∗ (∃ r, prngReg c r)) := by
  unfold Pipeline.ΦA; rw [scopedRest7_split]; simp only [scM7, owns_whole]; try rfl

/-- Between points the scratch holds the accumulator the point before left (before the first point, anything). -/
def PhiS7 (c : Dev nD) (n : ℕ) (hn : n ≤ cfg7.N) : sProp 𝕄 :=
  iprop(∃ xs, ⌜(h : n ≠ 0) → xs = accAt7 V c (n - 1) (by omega)⌝ ∗ owns (c : Thread nD τ) scM7 fullShare xs
    ∗ Pipeline.scopedRestBut (Ix := Unit) (Name := ℕ) (U := UR sig nD τ) (Lvl := ℕ) (Val := Elt F) spec7 c [cc7_scratch0]
    ∗ (∃ r, prngReg c r))

/-- The region's data at the entry contents `V`: the output block of a last column block is the accumulator plus the bias row. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => k7_pay3 (accAt7 V c t.val t.isLt) (iblk7 V c 2 t)
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = k7_pay3 (accAt7 V c t.val t.isLt) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- One step of the body is one step of the accumulator. -/
theorem acc7_eq (c : Dev nD) (t : Fin cfg7.N) (xs : Vec F S2048x16 .f32)
    (hxs : (h : t.val ≠ 0) → xs = accAt7 V c (t.val - 1) (Nat.lt_of_le_of_lt (Nat.sub_le _ _) t.isLt)) :
    acc7 (t.val % 4 = 0) xs (iblk7 V c 0 t) (iblk7 V c 1 t) = accAt7 V c t.val t.isLt := by
  unfold acc7
  by_cases h0 : t.val % 4 = 0
  · rw [if_pos h0, accAt7_A V c t h0]
  · rw [if_neg h0, accAt7_B V c t h0, hxs fun e => h0 (by rw [e])]

/-- The output block is written at a last column block and left as found elsewhere. -/
theorem leaves7_3 (c : Dev nD) (t : Fin cfg7.N) (d) :
    owns (c : Thread nD τ) (st7_3 t) fullShare
        (if t.val % 4 = 3 then k7_pay3 (accAt7 V c t.val t.isLt) (iblk7 V c 2 t) else (dat7 V c).before 3 t d)
      ⊢ (dat7 V c).leavesExact 3 t := by
  by_cases h3 : t.val % 4 = 3
  · rw [if_pos h3]; unfold Dat.leavesExact; rw [liveAt7_3 t h3, after7_3]
  · rw [if_neg h3, Dat.leavesExact_idle (dat7 V c) 3 t (idleAt7_3 t h3) (noFlush7_3 t h3)]
    iintro H; iexists d; iexact H

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ owns (c : Thread nD τ) (st7_0 t) fullShare (iblk7 V c 0 t)
    ∗ owns (c : Thread nD τ) (st7_1 t) fullShare (iblk7 V c 1 t)
    ∗ owns (c : Thread nD τ) (st7_2 t) fullShare (iblk7 V c 2 t)
    ∗ (dat7 V c).leavesExact 3 t)

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl,
    show (dat7 V c).Φ t.succ = PhiS7 V c (t.val + 1) t.isLt from rfl,
    show (dat7 V c).Φ t.castSucc = PhiS7 V c t.val (Nat.le_of_lt t.isLt) from rfl]
  unfold PhiS7
  iintro ⟨⟨%xs, %hxs, HS, Hrest, Hg⟩, Ho, ⟨%d0, H0⟩, ⟨%d1, H1⟩, ⟨%d2, H2⟩, ⟨%d3, H3⟩⟩
  iapply (sound_kernel7 c Set.univ (grid7.coords t) _ _ _ _ _ _ _ _ _ _ (iblk7 V c 0 t) (iblk7 V c 1 t) (iblk7 V c 2 t) _ xs
    (t.val % 4 = 0) (t.val % 4 = 3) (hcondA7 t) (hcondB7 t) (by omega) _)
  iframe H0 H1 H2 H3 HS
  iintro ⟨H0, H1, H2, H3, HS⟩
  rw [acc7_eq V c t xs hxs]
  isplitl [HS Hrest Hg]
  · iexists _; iframe; ipureintro; exact fun _ => rfl
  iframe
  iapply leaves7_3 V c t d3
  iexact H3

theorem body_obligation7 (c : Dev nD) : BodyObligation (dat7 (F := F) V c) (defs₀ (F := F)) Variants.none () Set.univ := fun t => by
  rw [bigSep_W7, bigSep_W7]
  exact sound_body7 V c t

theorem Phi_first7 (c : Dev nD) : Pipeline.ΦA spec7 c ⊢ (dat7 V c).Φ 0 := by
  rw [PhiA7_eq]; dsimp only [dat7]; unfold PhiS7
  iintro ⟨⟨⟨%d, HS⟩, Hrest⟩, Hg⟩
  iexists d; iframe; ipureintro; exact fun h => absurd rfl h

theorem Phi_last7 (c : Dev nD) : (dat7 V c).Φ (Fin.last cfg7.N) ⊢ Pipeline.ΦA spec7 c := by
  rw [PhiA7_eq]; dsimp only [dat7]; unfold PhiS7
  iintro ⟨%xs, -, HS, Hrest, Hg⟩
  iframe; iexists xs; iexact HS

end

end Cert.KernelIdeal.Hand

end
-- ==== Proof.KernelIdeal.Chain.lean ====
import proofs.«137875_j10720238371126_1_alg».proof.Proof.KernelIdeal.Hw0
import proofs.«137875_j10720238371126_1_alg».proof.Proof.KernelIdeal.Hw4
import proofs.«137875_j10720238371126_1_alg».proof.Proof.KernelIdeal.Hw6
import proofs.«137875_j10720238371126_1_alg».proof.Proof.KernelIdeal.Agg1
import proofs.«137875_j10720238371126_1_alg».proof.Proof.KernelIdeal.Agg3
import proofs.«137875_j10720238371126_1_alg».proof.Proof.KernelIdeal.Agg5
import proofs.«137875_j10720238371126_1_alg».proof.Proof.KernelIdeal.Agg7
import proofs.«137875_j10720238371126_1_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

/-- The contents of a core's buffers between the items of the run: a host stretch applies its lines, a region replaces its output array by what it leaves there. -/
abbrev W0 (c : Dev nD) : Valuation τ sig (Elt F) := fun b => m (c, b)

abbrev W1 (c : Dev nD) : Valuation τ sig (Elt F) := StableHlo.after hostOps0 (W0 m c)

def o2 (c : Dev nD) : Buf (Elt F) ((c : Thread nD τ).loc main_v2) := (dat0 (atTc (W1 m)) c).arrAt 2 cfg0.N
def W2 (c : Dev nD) : Valuation τ sig (Elt F) := Function.update (W1 m c) main_v2 (o2 m c)
def o3 (c : Dev nD) : Buf (Elt F) ((c : Thread nD τ).loc main_v3) := (dat1 (atTc (W2 m)) c).arrAt 3 cfg1.N
def W3 (c : Dev nD) : Valuation τ sig (Elt F) := Function.update (W2 m c) main_v3 (o3 m c)
abbrev W4 (c : Dev nD) : Valuation τ sig (Elt F) := StableHlo.after hostOps2 (W3 m c)
def o5 (c : Dev nD) : Buf (Elt F) ((c : Thread nD τ).loc main_v9) := (dat2 (atTc (W4 m)) c).arrAt 2 cfg2.N
def W5 (c : Dev nD) : Valuation τ sig (Elt F) := Function.update (W4 m c) main_v9 (o5 m c)
def o6 (c : Dev nD) : Buf (Elt F) ((c : Thread nD τ).loc main_v10) := (dat3 (atTc (W5 m)) c).arrAt 3 cfg3.N
def W6 (c : Dev nD) : Valuation τ sig (Elt F) := Function.update (W5 m c) main_v10 (o6 m c)
abbrev W7 (c : Dev nD) : Valuation τ sig (Elt F) := StableHlo.after hostOps4 (W6 m c)
def o8 (c : Dev nD) : Buf (Elt F) ((c : Thread nD τ).loc main_v16) := (dat4 (atTc (W7 m)) c).arrAt 2 cfg4.N
def W8 (c : Dev nD) : Valuation τ sig (Elt F) := Function.update (W7 m c) main_v16 (o8 m c)
def o9 (c : Dev nD) : Buf (Elt F) ((c : Thread nD τ).loc main_v17) := (dat5 (atTc (W8 m)) c).arrAt 3 cfg5.N
def W9 (c : Dev nD) : Valuation τ sig (Elt F) := Function.update (W8 m c) main_v17 (o9 m c)
abbrev W10 (c : Dev nD) : Valuation τ sig (Elt F) := StableHlo.after hostOps6 (W9 m c)
def o11 (c : Dev nD) : Buf (Elt F) ((c : Thread nD τ).loc main_v19) := (dat6 (atTc (W10 m)) c).arrAt 2 cfg6.N
def W11 (c : Dev nD) : Valuation τ sig (Elt F) := Function.update (W10 m c) main_v19 (o11 m c)
def o12 (c : Dev nD) : Buf (Elt F) ((c : Thread nD τ).loc main_v20) := (dat7 (atTc (W11 m)) c).arrAt 3 cfg7.N
def W12 (c : Dev nD) : Valuation τ sig (Elt F) := Function.update (W11 m c) main_v20 (o12 m c)

theorem W2_self (c : Dev nD) : W2 m c main_v2 = o2 m c := by unfold W2; exact Function.update_self ..
theorem W2_of_ne (c : Dev nD) (b : Ref sig .tc) (h : b ≠ main_v2) : W2 m c b = W1 m c b := by
  unfold W2; exact Function.update_of_ne (StableHlo.devRef_ne_of_ne h) _ _
theorem W3_self (c : Dev nD) : W3 m c main_v3 = o3 m c := by unfold W3; exact Function.update_self ..
theorem W3_of_ne (c : Dev nD) (b : Ref sig .tc) (h : b ≠ main_v3) : W3 m c b = W2 m c b := by
  unfold W3; exact Function.update_of_ne (StableHlo.devRef_ne_of_ne h) _ _
theorem W5_self (c : Dev nD) : W5 m c main_v9 = o5 m c := by unfold W5; exact Function.update_self ..
theorem W5_of_ne (c : Dev nD) (b : Ref sig .tc) (h : b ≠ main_v9) : W5 m c b = W4 m c b := by
  unfold W5; exact Function.update_of_ne (StableHlo.devRef_ne_of_ne h) _ _
theorem W6_self (c : Dev nD) : W6 m c main_v10 = o6 m c := by unfold W6; exact Function.update_self ..
theorem W6_of_ne (c : Dev nD) (b : Ref sig .tc) (h : b ≠ main_v10) : W6 m c b = W5 m c b := by
  unfold W6; exact Function.update_of_ne (StableHlo.devRef_ne_of_ne h) _ _
theorem W8_self (c : Dev nD) : W8 m c main_v16 = o8 m c := by unfold W8; exact Function.update_self ..
theorem W8_of_ne (c : Dev nD) (b : Ref sig .tc) (h : b ≠ main_v16) : W8 m c b = W7 m c b := by
  unfold W8; exact Function.update_of_ne (StableHlo.devRef_ne_of_ne h) _ _
theorem W9_self (c : Dev nD) : W9 m c main_v17 = o9 m c := by unfold W9; exact Function.update_self ..
theorem W9_of_ne (c : Dev nD) (b : Ref sig .tc) (h : b ≠ main_v17) : W9 m c b = W8 m c b := by
  unfold W9; exact Function.update_of_ne (StableHlo.devRef_ne_of_ne h) _ _
theorem W11_self (c : Dev nD) : W11 m c main_v19 = o11 m c := by unfold W11; exact Function.update_self ..
theorem W11_of_ne (c : Dev nD) (b : Ref sig .tc) (h : b ≠ main_v19) : W11 m c b = W10 m c b := by
  unfold W11; exact Function.update_of_ne (StableHlo.devRef_ne_of_ne h) _ _
theorem W12_self (c : Dev nD) : W12 m c main_v20 = o12 m c := by unfold W12; exact Function.update_self ..
theorem W12_of_ne (c : Dev nD) (b : Ref sig .tc) (h : b ≠ main_v20) : W12 m c b = W11 m c b := by
  unfold W12; exact Function.update_of_ne (StableHlo.devRef_ne_of_ne h) _ _

/-- What each region leaves in its output array, item by item. -/
def outs : Gen.Outs (F := F) := fun J r c =>
  match J with
  | 2 => W2 m c r
  | 3 => W3 m c r
  | 5 => W5 m c r
  | 6 => W6 m c r
  | 8 => W8 m c r
  | 9 => W9 m c r
  | 11 => W11 m c r
  | 12 => W12 m c r
  | _ => W0 m c r

theorem V1_eq (c : Dev nD) : Gen.V1 m c = W1 m c := rfl
theorem V2_eq (c : Dev nD) : Gen.V2 m (outs m) c = W2 m c := by
  show Function.update (Gen.V1 m c) main_v2 (W2 m c main_v2) = W2 m c
  rw [W2_self, V1_eq]; rfl
theorem V3_eq (c : Dev nD) : Gen.V3 m (outs m) c = W3 m c := by
  show Function.update (Gen.V2 m (outs m) c) main_v3 (W3 m c main_v3) = W3 m c
  rw [W3_self, V2_eq]; rfl
theorem V4_eq (c : Dev nD) : Gen.V4 m (outs m) c = W4 m c := by
  show StableHlo.after hostOps2 (Gen.V3 m (outs m) c) = W4 m c
  rw [V3_eq]
theorem V5_eq (c : Dev nD) : Gen.V5 m (outs m) c = W5 m c := by
  show Function.update (Gen.V4 m (outs m) c) main_v9 (W5 m c main_v9) = W5 m c
  rw [W5_self, V4_eq]; rfl
theorem V6_eq (c : Dev nD) : Gen.V6 m (outs m) c = W6 m c := by
  show Function.update (Gen.V5 m (outs m) c) main_v10 (W6 m c main_v10) = W6 m c
  rw [W6_self, V5_eq]; rfl
theorem V7_eq (c : Dev nD) : Gen.V7 m (outs m) c = W7 m c := by
  show StableHlo.after hostOps4 (Gen.V6 m (outs m) c) = W7 m c
  rw [V6_eq]
theorem V8_eq (c : Dev nD) : Gen.V8 m (outs m) c = W8 m c := by
  show Function.update (Gen.V7 m (outs m) c) main_v16 (W8 m c main_v16) = W8 m c
  rw [W8_self, V7_eq]; rfl
theorem V9_eq (c : Dev nD) : Gen.V9 m (outs m) c = W9 m c := by
  show Function.update (Gen.V8 m (outs m) c) main_v17 (W9 m c main_v17) = W9 m c
  rw [W9_self, V8_eq]; rfl
theorem V10_eq (c : Dev nD) : Gen.V10 m (outs m) c = W10 m c := by
  show StableHlo.after hostOps6 (Gen.V9 m (outs m) c) = W10 m c
  rw [V9_eq]
theorem V11_eq (c : Dev nD) : Gen.V11 m (outs m) c = W11 m c := by
  show Function.update (Gen.V10 m (outs m) c) main_v19 (W11 m c main_v19) = W11 m c
  rw [W11_self, V10_eq]; rfl
theorem V12_eq (c : Dev nD) : Gen.V12 m (outs m) c = W12 m c := by
  show Function.update (Gen.V11 m (outs m) c) main_v20 (W12 m c main_v20) = W12 m c
  rw [W12_self, V11_eq]; rfl

/-- Each region's data, at the contents it is entered from. -/
def pdats : (p : Fin 8) → (c : Dev nD) → Dat τ (Elt F) Unit ℕ (UR sig nD τ) ℕ (cfgs p) c
  | ⟨0, _⟩ => fun c => dat0 (atTc (W1 m)) c
  | ⟨1, _⟩ => fun c => dat1 (atTc (W2 m)) c
  | ⟨2, _⟩ => fun c => dat2 (atTc (W4 m)) c
  | ⟨3, _⟩ => fun c => dat3 (atTc (W5 m)) c
  | ⟨4, _⟩ => fun c => dat4 (atTc (W7 m)) c
  | ⟨5, _⟩ => fun c => dat5 (atTc (W8 m)) c
  | ⟨6, _⟩ => fun c => dat6 (atTc (W10 m)) c
  | ⟨7, _⟩ => fun c => dat7 (atTc (W11 m)) c

abbrev 𝒱₀ : Variants := Variants.none

abbrev L : GSem nD τ sig → Finset Unit := fun _ => ∅
abbrev lv : GSem nD τ sig → Unit → ℕ := fun _ _ => 0

/-- What rides beside the buffers through every item and comes back as it went in. -/
abbrev R (c : Dev nD) : sProp 𝕄 := iprop((∃ r, prngReg c r) ∗ ∃ W, owes (c : Thread nD τ) (0 : CellTallies nD τ sig Unit) W)

end Cert.KernelIdeal.Hand

end
-- ==== Proof.KernelIdeal.Segs.lean ====
import proofs.«137875_j10720238371126_1_alg».proof.Proof.KernelIdeal.Chain

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- Region `p` as one item of the run, entered at the contents `Wi` and left at `Wo`, which differ only at its output array `ro`:
    every other array of the region is an input and keeps its contents, and the arrays are distinct. -/
def regOf (p : Fin 8) (Wi Wo : Dev nD → Valuation τ sig (Elt F)) (la : Pipeline.LaunchFacts (nD := nD) (τ := τ) cfgs p)
    (hb : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = atTc Wi c (Pipeline.arrRef (pcfgs (F := F) p).spec w))
    (hin : ∀ c, Pipeline.ΦA (pcfgs (F := F) p).spec c ⊢ (pdats m p c).Φ 0)
    (hout : ∀ c, (pdats m p c).Φ (Fin.last _) ⊢ Pipeline.ΦA (pcfgs (F := F) p).spec c)
    (ro : Ref sig .tc) (wo : Fin (cfgs p).W) (hro : Pipeline.arrRef (pcfgs (F := F) p).spec wo = ro)
    (hne : ∀ c b, b ≠ ro → Wo c b = Wi c b) (hinp : ∀ w, w ≠ wo → ((cfgs p).win w).isOut = false)
    (hself : ∀ c, (pdats m p c).arrAt wo (cfgs p).N = atTc Wo c (Pipeline.arrRef (pcfgs (F := F) p).spec wo)) :
    Pipeline.RegionSeg (pcfgs (F := F)) Gen.adm (pdats m) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (atTc Wi c)
  hentry c := by
    rw [Pipeline.ownSems0_none]
    have hsplit := Pipeline.arrays_of_unscopedBufs (p := p) (pcfgs (F := F)) Gen.adm (pdats m) la.win la.arr_whole c
      ((pdats m p c).share_full (hq c)) (atTc Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      la.win la.arr_whole c (pdats m) ((pdats m p c).share_full (hq c))
      (atTc Wi c) (atTc Wo c) ((pdats m p c).arrAt · (cfgs p).N)
      (fun w => by
        by_cases hw : w = wo
        · subst hw; exact hself c
        · exact ((pdats m p c).arrAt_in w (hinp w hw) _).trans ((hA c w).trans
            (hne c _ fun e => hw (la.win.arr_inj (e.trans hro.symm))).symm))
      fun b hb => hne c b fun e => hb (Finset.mem_image.mpr ⟨wo, Finset.mem_univ _, hro.trans e.symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := regOf m 0 (W1 m) (W2 m) launch0 (fun c => body_obligation0 _ c) (fun _ _ => rfl) (fun _ _ => rfl) (fun _ _ => rfl)
  (fun _ _ => rfl) (fun c => .rfl) (fun c => .rfl) main_v2 2 rfl (W2_of_ne m) (by decide) (fun c => (W2_self m c).symm)

def reg1 := regOf m 1 (W2 m) (W3 m) launch1 (fun c => body_obligation1 _ c) (fun _ _ => rfl) (fun _ _ => rfl) (fun _ _ => rfl)
  (fun _ _ => rfl) (fun c => Phi_first1 _ c) (fun c => Phi_last1 _ c) main_v3 3 rfl (W3_of_ne m) (by decide) (fun c => (W3_self m c).symm)

def reg2 := regOf m 2 (W4 m) (W5 m) launch2 (fun c => body_obligation2 _ c) (fun _ _ => rfl) (fun _ _ => rfl) (fun _ _ => rfl)
  (fun _ _ => rfl) (fun c => .rfl) (fun c => .rfl) main_v9 2 rfl (W5_of_ne m) (by decide) (fun c => (W5_self m c).symm)

def reg3 := regOf m 3 (W5 m) (W6 m) launch3 (fun c => body_obligation3 _ c) (fun _ _ => rfl) (fun _ _ => rfl) (fun _ _ => rfl)
  (fun _ _ => rfl) (fun c => Phi_first3 _ c) (fun c => Phi_last3 _ c) main_v10 3 rfl (W6_of_ne m) (by decide) (fun c => (W6_self m c).symm)

def reg4 := regOf m 4 (W7 m) (W8 m) launch4 (fun c => body_obligation4 _ c) (fun _ _ => rfl) (fun _ _ => rfl) (fun _ _ => rfl)
  (fun _ _ => rfl) (fun c => .rfl) (fun c => .rfl) main_v16 2 rfl (W8_of_ne m) (by decide) (fun c => (W8_self m c).symm)

def reg5 := regOf m 5 (W8 m) (W9 m) launch5 (fun c => body_obligation5 _ c) (fun _ _ => rfl) (fun _ _ => rfl) (fun _ _ => rfl)
  (fun _ _ => rfl) (fun c => Phi_first5 _ c) (fun c => Phi_last5 _ c) main_v17 3 rfl (W9_of_ne m) (by decide) (fun c => (W9_self m c).symm)

def reg6 := regOf m 6 (W10 m) (W11 m) launch6 (fun c => body_obligation6 _ c) (fun _ _ => rfl) (fun _ _ => rfl) (fun _ _ => rfl)
  (fun _ _ => rfl) (fun c => .rfl) (fun c => .rfl) main_v19 2 rfl (W11_of_ne m) (by decide) (fun c => (W11_self m c).symm)

def reg7 := regOf m 7 (W11 m) (W12 m) launch7 (fun c => body_obligation7 _ c) (fun _ _ => rfl) (fun _ _ => rfl) (fun _ _ => rfl)
  (fun _ _ => rfl) (fun c => Phi_first7 _ c) (fun c => Phi_last7 _ c) main_v20 3 rfl (W12_of_ne m) (by decide) (fun c => (W12_self m c).symm)

end Cert.KernelIdeal.Hand

end
-- ==== Proof.KernelIdeal.Run.lean ====
import proofs.«137875_j10720238371126_1_alg».proof.Proof.KernelIdeal.Segs
import proofs.«137875_j10720238371126_1_alg».proof.Proof.KernelIdeal.RunV

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates without fault, keeps the arguments and leaves the result array at what the last region left there. -/
theorem run : θ_run defs (onTc (τ := τ) (main (F := F))) ⟨m, fun _ => 0, ρ⟩ (fun r => ∀ c : Dev nD,
      r.2.mem ((c.tc : Thread nD τ).loc main_v20) = o12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (by rw [V12_eq, W12_self]), (h c).2⟩) <|
  Cert.KernelIdeal.GenP.run_cond (m := m)
    (EP := emb₁) (ι := ()) (𝒱₀ := 𝒱₀) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hcore : ∀ c : Dev nD,
          iprop(unscopedSems0 c ∗ owes (c : Thread nD τ) ((0 : Dev nD → CellTallies nD τ sig Unit) c) ∅
              ∗ Pipeline.launchCred (0 : Dev nD → CellTallies nD τ sig Unit) c ∗ prngReg c (ρ c) ∗ iprop(emp))
            ⊢ (R c : sProp 𝕄) := fun c => by
        iintro ⟨-, HO, -, Hp, -⟩
        isplitl [Hp]; · iexists _; iexact Hp
        iexists ∅; iexact HO
      have hmono : (bigSep Finset.univ fun c : Dev nD =>
            iprop(unscopedSems0 c ∗ owes (c : Thread nD τ) ((0 : Dev nD → CellTallies nD τ sig Unit) c) ∅
              ∗ Pipeline.launchCred (0 : Dev nD → CellTallies nD τ sig Unit) c ∗ prngReg c (ρ c) ∗ iprop(emp)))
          ⊢ (bigSep Finset.univ (fun c : Dev nD => R c) : sProp 𝕄) :=
        bigSep_mono (s := Finset.univ) fun c _ => hcore c
      iintro ⟨H, -⟩
      imodintro
      iapply hmono
      iexact H)
    (hE8 := fun c => by iintro ⟨-, HO⟩; iexact HO)
    (R0 := reg0 m) (hpre0 := fun c => by rw [V1_eq]; exact .rfl) (hpost0 := fun c => by rw [V2_eq]; exact .rfl)
    (R1 := reg1 m) (hpre1 := fun c => by rw [V2_eq]; exact .rfl) (hpost1 := fun c => by rw [V3_eq]; exact .rfl)
    (R2 := reg2 m) (hpre2 := fun c => by rw [V4_eq]; exact .rfl) (hpost2 := fun c => by rw [V5_eq]; exact .rfl)
    (R3 := reg3 m) (hpre3 := fun c => by rw [V5_eq]; exact .rfl) (hpost3 := fun c => by rw [V6_eq]; exact .rfl)
    (R4 := reg4 m) (hpre4 := fun c => by rw [V7_eq]; exact .rfl) (hpost4 := fun c => by rw [V8_eq]; exact .rfl)
    (R5 := reg5 m) (hpre5 := fun c => by rw [V8_eq]; exact .rfl) (hpost5 := fun c => by rw [V9_eq]; exact .rfl)
    (R6 := reg6 m) (hpre6 := fun c => by rw [V10_eq]; exact .rfl) (hpost6 := fun c => by rw [V11_eq]; exact .rfl)
    (R7 := reg7 m) (hpre7 := fun c => by rw [V11_eq]; exact .rfl) (hpost7 := fun c => by rw [V12_eq]; exact .rfl)

end Cert.KernelIdeal.Hand

end
-- ==== Proof.LibMatmulPlain.lean ====
import Idealize.ShloMosaic.Lib.ValueIdx
import Idealize.ShloMosaic.PureOps.Ideal.Laws

noncomputable section

namespace Cert.Gcn

open Idealize.ShloMosaic Idealize.ShloMosaic.ValueIdx

variable {M K N : ℕ}

/-- A contraction of the last axis of the left factor with the first of the right, no batch axes. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- Over such dimensions the contraction's index runs over `Fin K`. -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- A matrix product into a zero accumulator is the plain sum of products. -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.KernelIdeal.HwValue0.lean ====
import proofs.«137875_j10720238371126_1_alg».proof.Proof.KernelIdeal.Hw0
import proofs.«137875_j10720238371126_1_alg».proof.Proof.LibMatmulPlain
import Idealize.ShloMosaic.Lib.Pipeline.Value

noncomputable section

namespace Cert.KernelIdeal.Hand

open Idealize.ShloMosaic Idealize.ShloMosaic.TcCoe
open Cert.KernelIdeal Cert.KernelIdeal.Gen

open Idealize.ShloMosaic.ValueIdx

theorem hzero0 : (![0, 0] : Fin 2 → ℕ) = fun _ => 0 := by funext a; fin_cases a <;> rfl

/-- Features times weights, entry by entry. -/
def hwG0 (X : FVec Ideal S16384x128 .f32) (Wt : FVec Ideal S128x64 .f32) : FVec Ideal S16384x64 .bf16 :=
  fun i => ∑ l : Fin 128, X (ix2 (i 0) l) * Wt (ix2 l (i 1))

theorem pay_apply0 (x0 : FVec Ideal S4096x128 .f32) (x1 : FVec Ideal S128x64 .f32) (p : Fin 4096) (q : Fin 64) :
    (k0_pay1 (F := Ideal) x0 x1 : FVec Ideal S4096x64 .bf16) (ix2 p q) = ∑ l : Fin 128, x0 (ix2 p l) * x1 (ix2 l q) := by
  have h := Cert.Gcn.matmul_plain_apply (φ₁ := .bf16) (φ₂ := .bf16) dot_S4096x128_S128x64_S4096x64_1_0_0_1_n_n ⟨rfl, rfl, rfl, rfl, rfl, rfl⟩ none x0 x1 p q
  unfold k0_pay1
  try dsimp only
  try rw [shapeCast_self]
  try rw [shapeCast_self]
  exact h

section
variable (V : (c : Dev nD) → (b : Ref sig .tc) → Buf (Elt Ideal) ((c : Thread nD τ).loc b))

abbrev xArr0 (c : Dev nD) : FVec Ideal S16384x128 .f32 := V c main_arg0
abbrev wArr0 (c : Dev nD) : FVec Ideal S128x64 .f32 := V c main_arg2
abbrev xBlk0 (c : Dev nD) (t : Fin cfg0.N) : FVec Ideal S4096x128 .f32 := iblk0 V c 0 t
abbrev wBlk0 (c : Dev nD) (t : Fin cfg0.N) : FVec Ideal S128x64 .f32 := iblk0 V c 1 t

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem blk_read0_x (c : Dev nD) (t : Fin cfg0.N) (p : Fin 4096) (l : Fin 128) :
    xBlk0 V c t (ix2 p l) = xArr0 V c (ix2 (⟨4096 * t.val + p.val, by have h := t.isLt; have hN : cfg0.N = 4 := N_0; omega⟩ : Fin 16384) l) := by
  obtain ⟨e0, e1, -, -, -, -⟩ := idx_facts0 t
  show V c main_arg0 (((cfg0.win 0).blk t).view.emb (ix2 p l)) = V c main_arg0 _
  refine congrArg _ (funext fun a => Fin.ext ?_)
  match a with
  | ⟨0, _⟩ => show win0_0.index t (0 : Fin 2) * 4096 + 1 * p.val = 4096 * t.val + p.val; rw [e0]; omega
  | ⟨1, _⟩ => show win0_0.index t (1 : Fin 2) * 128 + 1 * l.val = l.val; rw [e1]; omega

theorem blk_read0_w (c : Dev nD) (t : Fin cfg0.N) (l : Fin 128) (q : Fin 64) :
    wBlk0 V c t (ix2 l q) = wArr0 V c (ix2 l q) := by
  obtain ⟨-, -, e2, e3, -, -⟩ := idx_facts0 t
  show V c main_arg2 (((cfg0.win 1).blk t).view.emb (ix2 l q)) = V c main_arg2 _
  refine congrArg _ (funext fun a => Fin.ext ?_)
  match a with
  | ⟨0, _⟩ => show win0_1.index t (0 : Fin 2) * 128 + 1 * l.val = l.val; rw [e2]; omega
  | ⟨1, _⟩ => show win0_1.index t (1 : Fin 2) * 64 + 1 * q.val = q.val; rw [e3]; omega

theorem flushed_eq0 (c : Dev nD) (t : Fin cfg0.N) :
    (dat0 (F := Ideal) V c).flushed 2 t = ((cfg0.win 2).blk t).view.read (Elt Ideal) (hwG0 (xArr0 V c) (wArr0 V c)) := by
  show (cfg0.win 2).cut (grid0.coords t) ((dat0 V c).after 2 t) = _
  rw [after0_2]
  unfold out0_2
  rw [View.canon_unit_zero hzero0]
  simp only [View.ld_unit_zero (S := S4096x128) hzero0, View.ld_unit_zero (S := S128x64) hzero0]
  obtain ⟨-, -, -, -, e4, e5⟩ := idx_facts0 t
  funext j
  obtain ⟨p, q, rfl⟩ : ∃ (p : Fin 4096) (q : Fin 64), j = ix2 p q := ⟨j 0, j 1, eq_ix2 j⟩
  refine (pay_apply0 (xBlk0 V c t) (wBlk0 V c t) p q).trans ?_
  show _ = hwG0 (xArr0 V c) (wArr0 V c) (((cfg0.win 2).blk t).view.emb (ix2 p q))
  unfold hwG0
  refine Finset.sum_congr rfl fun l _ => ?_
  rw [blk_read0_x V c t p l, blk_read0_w V c t l q]
  have ha : (((cfg0.win 2).blk t).view.emb (ix2 p q) 0).val = 4096 * t.val + p.val := by
    show win0_2.index t (0 : Fin 2) * 4096 + 1 * p.val = _; rw [e4]; omega
  have hb : (((cfg0.win 2).blk t).view.emb (ix2 p q) 1).val = q.val := by
    show win0_2.index t (1 : Fin 2) * 64 + 1 * q.val = _; rw [e5]; omega
  congr 1
  · exact congrArg _ (funext fun a => Fin.ext (by
      match a with
      | ⟨0, _⟩ => exact ha.symm
      | ⟨1, _⟩ => rfl))
  · exact congrArg _ (funext fun a => Fin.ext (by
      match a with
      | ⟨0, _⟩ => rfl
      | ⟨1, _⟩ => exact hb.symm))

theorem mem_blk0 (t : Fin cfg0.N) (i : S16384x64.Idx) :
    i ∈ ((cfg0.win 2).blk t).view.set ↔ ∀ a : Fin 2, win0_2.index t a * S4096x64.size a ≤ (i a).val ∧ (i a).val < win0_2.index t a * S4096x64.size a + S4096x64.size a := by
  show i ∈ ((View.whole main_v2).slice (win0_2.rect t)).set ↔ _
  rw [View.set_slice_whole, Rect.mem_set_unit]
  exact Iff.rfl

theorem cover_out0 (i : S16384x64.Idx) : ∃ t : Fin cfg0.N, (cfg0.win 2).flush t = true ∧ i ∈ ((cfg0.win 2).blk t).view.set := by
  have hi0 : (i 0).val < 16384 := idx2_lt0 i
  have hi1 : (i 1).val < 64 := idx2_lt1 i
  have hN : cfg0.N = 4 := N_0
  refine ⟨⟨(i 0).val / 4096, by rw [hN]; omega⟩, flush0_2 _, ?_⟩
  obtain ⟨-, -, -, -, e4, e5⟩ := idx_facts0 ⟨(i 0).val / 4096, by rw [hN]; omega⟩
  rw [mem_blk0]
  intro a
  match a with
  | ⟨0, _⟩ =>
    show win0_2.index _ (0 : Fin 2) * 4096 ≤ (i 0).val ∧ (i 0).val < win0_2.index _ (0 : Fin 2) * 4096 + 4096
    rw [e4]; show (i 0).val / 4096 * 4096 ≤ (i 0).val ∧ (i 0).val < (i 0).val / 4096 * 4096 + 4096; omega
  | ⟨1, _⟩ =>
    show win0_2.index _ (1 : Fin 2) * 64 ≤ (i 1).val ∧ (i 1).val < win0_2.index _ (1 : Fin 2) * 64 + 64
    rw [e5]; omega

/-- The region's output array is the product of its two input arrays as it found them: each row block is written once. -/
theorem final0 (c : Dev nD) : (dat0 (F := Ideal) V c).arrAt 2 cfg0.N = hwG0 (xArr0 V c) (wArr0 V c) :=
  (dat0 V c).arrAt_eq_of_cover 2 _ (fun t _ => flushed_eq0 V c t) cover_out0

end

end Cert.KernelIdeal.Hand

end
-- ==== Proof.KernelIdeal.HwValue2.lean ====
import proofs.«137875_j10720238371126_1_alg».proof.Proof.KernelIdeal.Hw2
import proofs.«137875_j10720238371126_1_alg».proof.Proof.LibMatmulPlain
import Idealize.ShloMosaic.Lib.Pipeline.Value

noncomputable section

namespace Cert.KernelIdeal.Hand

open Idealize.ShloMosaic Idealize.ShloMosaic.TcCoe
open Cert.KernelIdeal Cert.KernelIdeal.Gen

open Idealize.ShloMosaic.ValueIdx

theorem hzero2 : (![0, 0] : Fin 2 → ℕ) = fun _ => 0 := by funext a; fin_cases a <;> rfl

/-- Features times weights, entry by entry. -/
def hwG2 (X : FVec Ideal S16384x64 .f32) (Wt : FVec Ideal S64x64 .f32) : FVec Ideal S16384x64 .bf16 :=
  fun i => ∑ l : Fin 64, X (ix2 (i 0) l) * Wt (ix2 l (i 1))

theorem pay_apply2 (x0 : FVec Ideal S4096x64 .f32) (x1 : FVec Ideal S64x64 .f32) (p : Fin 4096) (q : Fin 64) :
    (k2_pay1 (F := Ideal) x0 x1 : FVec Ideal S4096x64 .bf16) (ix2 p q) = ∑ l : Fin 64, x0 (ix2 p l) * x1 (ix2 l q) := by
  have h := Cert.Gcn.matmul_plain_apply (φ₁ := .bf16) (φ₂ := .bf16) dot_S4096x64_S64x64_S4096x64_1_0_0_1_n_n ⟨rfl, rfl, rfl, rfl, rfl, rfl⟩ none x0 x1 p q
  unfold k2_pay1
  try dsimp only
  try rw [shapeCast_self]
  try rw [shapeCast_self]
  exact h

section
variable (V : (c : Dev nD) → (b : Ref sig .tc) → Buf (Elt Ideal) ((c : Thread nD τ).loc b))

abbrev xArr2 (c : Dev nD) : FVec Ideal S16384x64 .f32 := V c main_v3
abbrev wArr2 (c : Dev nD) : FVec Ideal S64x64 .f32 := V c main_v8
abbrev xBlk2 (c : Dev nD) (t : Fin cfg2.N) : FVec Ideal S4096x64 .f32 := iblk2 V c 0 t
abbrev wBlk2 (c : Dev nD) (t : Fin cfg2.N) : FVec Ideal S64x64 .f32 := iblk2 V c 1 t

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem blk_read2_x (c : Dev nD) (t : Fin cfg2.N) (p : Fin 4096) (l : Fin 64) :
    xBlk2 V c t (ix2 p l) = xArr2 V c (ix2 (⟨4096 * t.val + p.val, by have h := t.isLt; have hN : cfg2.N = 4 := N_2; omega⟩ : Fin 16384) l) := by
  obtain ⟨e0, e1, -, -, -, -⟩ := idx_facts2 t
  show V c main_v3 (((cfg2.win 0).blk t).view.emb (ix2 p l)) = V c main_v3 _
  refine congrArg _ (funext fun a => Fin.ext ?_)
  match a with
  | ⟨0, _⟩ => show win2_0.index t (0 : Fin 2) * 4096 + 1 * p.val = 4096 * t.val + p.val; rw [e0]; omega
  | ⟨1, _⟩ => show win2_0.index t (1 : Fin 2) * 64 + 1 * l.val = l.val; rw [e1]; omega

theorem blk_read2_w (c : Dev nD) (t : Fin cfg2.N) (l : Fin 64) (q : Fin 64) :
    wBlk2 V c t (ix2 l q) = wArr2 V c (ix2 l q) := by
  obtain ⟨-, -, e2, e3, -, -⟩ := idx_facts2 t
  show V c main_v8 (((cfg2.win 1).blk t).view.emb (ix2 l q)) = V c main_v8 _
  refine congrArg _ (funext fun a => Fin.ext ?_)
  match a with
  | ⟨0, _⟩ => show win2_1.index t (0 : Fin 2) * 64 + 1 * l.val = l.val; rw [e2]; omega
  | ⟨1, _⟩ => show win2_1.index t (1 : Fin 2) * 64 + 1 * q.val = q.val; rw [e3]; omega

theorem flushed_eq2 (c : Dev nD) (t : Fin cfg2.N) :
    (dat2 (F := Ideal) V c).flushed 2 t = ((cfg2.win 2).blk t).view.read (Elt Ideal) (hwG2 (xArr2 V c) (wArr2 V c)) := by
  show (cfg2.win 2).cut (grid2.coords t) ((dat2 V c).after 2 t) = _
  rw [after2_2]
  unfold out2_2
  rw [View.canon_unit_zero hzero2]
  simp only [View.ld_unit_zero (S := S4096x64) hzero2, View.ld_unit_zero (S := S64x64) hzero2]
  obtain ⟨-, -, -, -, e4, e5⟩ := idx_facts2 t
  funext j
  obtain ⟨p, q, rfl⟩ : ∃ (p : Fin 4096) (q : Fin 64), j = ix2 p q := ⟨j 0, j 1, eq_ix2 j⟩
  refine (pay_apply2 (xBlk2 V c t) (wBlk2 V c t) p q).trans ?_
  show _ = hwG2 (xArr2 V c) (wArr2 V c) (((cfg2.win 2).blk t).view.emb (ix2 p q))
  unfold hwG2
  refine Finset.sum_congr rfl fun l _ => ?_
  rw [blk_read2_x V c t p l, blk_read2_w V c t l q]
  have ha : (((cfg2.win 2).blk t).view.emb (ix2 p q) 0).val = 4096 * t.val + p.val := by
    show win2_2.index t (0 : Fin 2) * 4096 + 1 * p.val = _; rw [e4]; omega
  have hb : (((cfg2.win 2).blk t).view.emb (ix2 p q) 1).val = q.val := by
    show win2_2.index t (1 : Fin 2) * 64 + 1 * q.val = _; rw [e5]; omega
  congr 1
  · exact congrArg _ (funext fun a => Fin.ext (by
      match a with
      | ⟨0, _⟩ => exact ha.symm
      | ⟨1, _⟩ => rfl))
  · exact congrArg _ (funext fun a => Fin.ext (by
      match a with
      | ⟨0, _⟩ => rfl
      | ⟨1, _⟩ => exact hb.symm))

theorem mem_blk2 (t : Fin cfg2.N) (i : S16384x64.Idx) :
    i ∈ ((cfg2.win 2).blk t).view.set ↔ ∀ a : Fin 2, win2_2.index t a * S4096x64.size a ≤ (i a).val ∧ (i a).val < win2_2.index t a * S4096x64.size a + S4096x64.size a := by
  show i ∈ ((View.whole main_v9).slice (win2_2.rect t)).set ↔ _
  rw [View.set_slice_whole, Rect.mem_set_unit]
  exact Iff.rfl

theorem cover_out2 (i : S16384x64.Idx) : ∃ t : Fin cfg2.N, (cfg2.win 2).flush t = true ∧ i ∈ ((cfg2.win 2).blk t).view.set := by
  have hi0 : (i 0).val < 16384 := idx2_lt0 i
  have hi1 : (i 1).val < 64 := idx2_lt1 i
  have hN : cfg2.N = 4 := N_2
  refine ⟨⟨(i 0).val / 4096, by rw [hN]; omega⟩, flush2_2 _, ?_⟩
  obtain ⟨-, -, -, -, e4, e5⟩ := idx_facts2 ⟨(i 0).val / 4096, by rw [hN]; omega⟩
  rw [mem_blk2]
  intro a
  match a with
  | ⟨0, _⟩ =>
    show win2_2.index _ (0 : Fin 2) * 4096 ≤ (i 0).val ∧ (i 0).val < win2_2.index _ (0 : Fin 2) * 4096 + 4096
    rw [e4]; show (i 0).val / 4096 * 4096 ≤ (i 0).val ∧ (i 0).val < (i 0).val / 4096 * 4096 + 4096; omega
  | ⟨1, _⟩ =>
    show win2_2.index _ (1 : Fin 2) * 64 ≤ (i 1).val ∧ (i 1).val < win2_2.index _ (1 : Fin 2) * 64 + 64
    rw [e5]; omega

/-- The region's output array is the product of its two input arrays as it found them: each row block is written once. -/
theorem final2 (c : Dev nD) : (dat2 (F := Ideal) V c).arrAt 2 cfg2.N = hwG2 (xArr2 V c) (wArr2 V c) :=
  (dat2 V c).arrAt_eq_of_cover 2 _ (fun t _ => flushed_eq2 V c t) cover_out2

end

end Cert.KernelIdeal.Hand

end
-- ==== Proof.KernelIdeal.HwValue4.lean ====
import proofs.«137875_j10720238371126_1_alg».proof.Proof.KernelIdeal.Hw4
import proofs.«137875_j10720238371126_1_alg».proof.Proof.KernelIdeal.HwValue2

noncomputable section

namespace Cert.KernelIdeal.Hand

open Idealize.ShloMosaic Idealize.ShloMosaic.TcCoe
open Cert.KernelIdeal Cert.KernelIdeal.Gen

open Idealize.ShloMosaic.ValueIdx

section
variable (V : (c : Dev nD) → (b : Ref sig .tc) → Buf (Elt Ideal) ((c : Thread nD τ).loc b))

abbrev xArr4 (c : Dev nD) : FVec Ideal S16384x64 .f32 := V c main_v10
abbrev wArr4 (c : Dev nD) : FVec Ideal S64x64 .f32 := V c main_v15
abbrev xBlk4 (c : Dev nD) (t : Fin cfg4.N) : FVec Ideal S4096x64 .f32 := iblk4 V c 0 t
abbrev wBlk4 (c : Dev nD) (t : Fin cfg4.N) : FVec Ideal S64x64 .f32 := iblk4 V c 1 t

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem blk_read4_x (c : Dev nD) (t : Fin cfg4.N) (p : Fin 4096) (l : Fin 64) :
    xBlk4 V c t (ix2 p l) = xArr4 V c (ix2 (⟨4096 * t.val + p.val, by have h := t.isLt; have hN : cfg4.N = 4 := N_4; omega⟩ : Fin 16384) l) := by
  obtain ⟨e0, e1, -, -, -, -⟩ := idx_facts4 t
  show V c main_v10 (((cfg4.win 0).blk t).view.emb (ix2 p l)) = V c main_v10 _
  refine congrArg _ (funext fun a => Fin.ext ?_)
  match a with
  | ⟨0, _⟩ => show win4_0.index t (0 : Fin 2) * 4096 + 1 * p.val = 4096 * t.val + p.val; rw [e0]; omega
  | ⟨1, _⟩ => show win4_0.index t (1 : Fin 2) * 64 + 1 * l.val = l.val; rw [e1]; omega

theorem blk_read4_w (c : Dev nD) (t : Fin cfg4.N) (l : Fin 64) (q : Fin 64) :
    wBlk4 V c t (ix2 l q) = wArr4 V c (ix2 l q) := by
  obtain ⟨-, -, e2, e3, -, -⟩ := idx_facts4 t
  show V c main_v15 (((cfg4.win 1).blk t).view.emb (ix2 l q)) = V c main_v15 _
  refine congrArg _ (funext fun a => Fin.ext ?_)
  match a with
  | ⟨0, _⟩ => show win4_1.index t (0 : Fin 2) * 64 + 1 * l.val = l.val; rw [e2]; omega
  | ⟨1, _⟩ => show win4_1.index t (1 : Fin 2) * 64 + 1 * q.val = q.val; rw [e3]; omega

theorem flushed_eq4 (c : Dev nD) (t : Fin cfg4.N) :
    (dat4 (F := Ideal) V c).flushed 2 t = ((cfg4.win 2).blk t).view.read (Elt Ideal) (hwG2 (xArr4 V c) (wArr4 V c)) := by
  show (cfg4.win 2).cut (grid4.coords t) ((dat4 V c).after 2 t) = _
  rw [after4_2]
  unfold out2_2
  rw [View.canon_unit_zero hzero2]
  simp only [View.ld_unit_zero (S := S4096x64) hzero2, View.ld_unit_zero (S := S64x64) hzero2]
  obtain ⟨-, -, -, -, e4, e5⟩ := idx_facts4 t
  funext j
  obtain ⟨p, q, rfl⟩ : ∃ (p : Fin 4096) (q : Fin 64), j = ix2 p q := ⟨j 0, j 1, eq_ix2 j⟩
  refine (pay_apply2 (xBlk4 V c t) (wBlk4 V c t) p q).trans ?_
  show _ = hwG2 (xArr4 V c) (wArr4 V c) (((cfg4.win 2).blk t).view.emb (ix2 p q))
  unfold hwG2
  refine Finset.sum_congr rfl fun l _ => ?_
  rw [blk_read4_x V c t p l, blk_read4_w V c t l q]
  have ha : (((cfg4.win 2).blk t).view.emb (ix2 p q) 0).val = 4096 * t.val + p.val := by
    show win4_2.index t (0 : Fin 2) * 4096 + 1 * p.val = _; rw [e4]; omega
  have hb : (((cfg4.win 2).blk t).view.emb (ix2 p q) 1).val = q.val := by
    show win4_2.index t (1 : Fin 2) * 64 + 1 * q.val = _; rw [e5]; omega
  congr 1
  · exact congrArg _ (funext fun a => Fin.ext (by
      match a with
      | ⟨0, _⟩ => exact ha.symm
      | ⟨1, _⟩ => rfl))
  · exact congrArg _ (funext fun a => Fin.ext (by
      match a with
      | ⟨0, _⟩ => rfl
      | ⟨1, _⟩ => exact hb.symm))

theorem mem_blk4 (t : Fin cfg4.N) (i : S16384x64.Idx) :
    i ∈ ((cfg4.win 2).blk t).view.set ↔ ∀ a : Fin 2, win4_2.index t a * S4096x64.size a ≤ (i a).val ∧ (i a).val < win4_2.index t a * S4096x64.size a + S4096x64.size a := by
  show i ∈ ((View.whole main_v16).slice (win4_2.rect t)).set ↔ _
  rw [View.set_slice_whole, Rect.mem_set_unit]
  exact Iff.rfl

theorem cover_out4 (i : S16384x64.Idx) : ∃ t : Fin cfg4.N, (cfg4.win 2).flush t = true ∧ i ∈ ((cfg4.win 2).blk t).view.set := by
  have hi0 : (i 0).val < 16384 := idx2_lt0 i
  have hi1 : (i 1).val < 64 := idx2_lt1 i
  have hN : cfg4.N = 4 := N_4
  refine ⟨⟨(i 0).val / 4096, by rw [hN]; omega⟩, flush4_2 _, ?_⟩
  obtain ⟨-, -, -, -, e4, e5⟩ := idx_facts4 ⟨(i 0).val / 4096, by rw [hN]; omega⟩
  rw [mem_blk4]
  intro a
  match a with
  | ⟨0, _⟩ =>
    show win4_2.index _ (0 : Fin 2) * 4096 ≤ (i 0).val ∧ (i 0).val < win4_2.index _ (0 : Fin 2) * 4096 + 4096
    rw [e4]; show (i 0).val / 4096 * 4096 ≤ (i 0).val ∧ (i 0).val < (i 0).val / 4096 * 4096 + 4096; omega
  | ⟨1, _⟩ =>
    show win4_2.index _ (1 : Fin 2) * 64 ≤ (i 1).val ∧ (i 1).val < win4_2.index _ (1 : Fin 2) * 64 + 64
    rw [e5]; omega

/-- The region's output array is the product of its two input arrays as it found them: each row block is written once. -/
theorem final4 (c : Dev nD) : (dat4 (F := Ideal) V c).arrAt 2 cfg4.N = hwG2 (xArr4 V c) (wArr4 V c) :=
  (dat4 V c).arrAt_eq_of_cover 2 _ (fun t _ => flushed_eq4 V c t) cover_out4

end

end Cert.KernelIdeal.Hand

end
-- ==== Proof.KernelIdeal.HwValue6.lean ====
import proofs.«137875_j10720238371126_1_alg».proof.Proof.KernelIdeal.Hw6
import proofs.«137875_j10720238371126_1_alg».proof.Proof.LibMatmulPlain
import Idealize.ShloMosaic.Lib.Pipeline.Value

noncomputable section

namespace Cert.KernelIdeal.Hand

open Idealize.ShloMosaic Idealize.ShloMosaic.TcCoe
open Cert.KernelIdeal Cert.KernelIdeal.Gen

open Idealize.ShloMosaic.ValueIdx

theorem hzero6 : (![0, 0] : Fin 2 → ℕ) = fun _ => 0 := by funext a; fin_cases a <;> rfl

/-- Features times weights, entry by entry. -/
def hwG6 (X : FVec Ideal S16384x64 .f32) (Wt : FVec Ideal S64x16 .f32) : FVec Ideal S16384x16 .bf16 :=
  fun i => ∑ l : Fin 64, X (ix2 (i 0) l) * Wt (ix2 l (i 1))

theorem pay_apply6 (x0 : FVec Ideal S4096x64 .f32) (x1 : FVec Ideal S64x16 .f32) (p : Fin 4096) (q : Fin 16) :
    (k6_pay1 (F := Ideal) x0 x1 : FVec Ideal S4096x16 .bf16) (ix2 p q) = ∑ l : Fin 64, x0 (ix2 p l) * x1 (ix2 l q) := by
  have h := Cert.Gcn.matmul_plain_apply (φ₁ := .bf16) (φ₂ := .bf16) dot_S4096x64_S64x16_S4096x16_1_0_0_1_n_n ⟨rfl, rfl, rfl, rfl, rfl, rfl⟩ none x0 x1 p q
  unfold k6_pay1
  try dsimp only
  try rw [shapeCast_self]
  try rw [shapeCast_self]
  exact h

section
variable (V : (c : Dev nD) → (b : Ref sig .tc) → Buf (Elt Ideal) ((c : Thread nD τ).loc b))

abbrev xArr6 (c : Dev nD) : FVec Ideal S16384x64 .f32 := V c main_v17
abbrev wArr6 (c : Dev nD) : FVec Ideal S64x16 .f32 := V c main_arg6
abbrev xBlk6 (c : Dev nD) (t : Fin cfg6.N) : FVec Ideal S4096x64 .f32 := iblk6 V c 0 t
abbrev wBlk6 (c : Dev nD) (t : Fin cfg6.N) : FVec Ideal S64x16 .f32 := iblk6 V c 1 t

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem blk_read6_x (c : Dev nD) (t : Fin cfg6.N) (p : Fin 4096) (l : Fin 64) :
    xBlk6 V c t (ix2 p l) = xArr6 V c (ix2 (⟨4096 * t.val + p.val, by have h := t.isLt; have hN : cfg6.N = 4 := N_6; omega⟩ : Fin 16384) l) := by
  obtain ⟨e0, e1, -, -, -, -⟩ := idx_facts6 t
  show V c main_v17 (((cfg6.win 0).blk t).view.emb (ix2 p l)) = V c main_v17 _
  refine congrArg _ (funext fun a => Fin.ext ?_)
  match a with
  | ⟨0, _⟩ => show win6_0.index t (0 : Fin 2) * 4096 + 1 * p.val = 4096 * t.val + p.val; rw [e0]; omega
  | ⟨1, _⟩ => show win6_0.index t (1 : Fin 2) * 64 + 1 * l.val = l.val; rw [e1]; omega

theorem blk_read6_w (c : Dev nD) (t : Fin cfg6.N) (l : Fin 64) (q : Fin 16) :
    wBlk6 V c t (ix2 l q) = wArr6 V c (ix2 l q) := by
  obtain ⟨-, -, e2, e3, -, -⟩ := idx_facts6 t
  show V c main_arg6 (((cfg6.win 1).blk t).view.emb (ix2 l q)) = V c main_arg6 _
  refine congrArg _ (funext fun a => Fin.ext ?_)
  match a with
  | ⟨0, _⟩ => show win6_1.index t (0 : Fin 2) * 64 + 1 * l.val = l.val; rw [e2]; omega
  | ⟨1, _⟩ => show win6_1.index t (1 : Fin 2) * 16 + 1 * q.val = q.val; rw [e3]; omega

theorem flushed_eq6 (c : Dev nD) (t : Fin cfg6.N) :
    (dat6 (F := Ideal) V c).flushed 2 t = ((cfg6.win 2).blk t).view.read (Elt Ideal) (hwG6 (xArr6 V c) (wArr6 V c)) := by
  show (cfg6.win 2).cut (grid6.coords t) ((dat6 V c).after 2 t) = _
  rw [after6_2]
  unfold out6_2
  rw [View.canon_unit_zero hzero6]
  simp only [View.ld_unit_zero (S := S4096x64) hzero6, View.ld_unit_zero (S := S64x16) hzero6]
  obtain ⟨-, -, -, -, e4, e5⟩ := idx_facts6 t
  funext j
  obtain ⟨p, q, rfl⟩ : ∃ (p : Fin 4096) (q : Fin 16), j = ix2 p q := ⟨j 0, j 1, eq_ix2 j⟩
  refine (pay_apply6 (xBlk6 V c t) (wBlk6 V c t) p q).trans ?_
  show _ = hwG6 (xArr6 V c) (wArr6 V c) (((cfg6.win 2).blk t).view.emb (ix2 p q))
  unfold hwG6
  refine Finset.sum_congr rfl fun l _ => ?_
  rw [blk_read6_x V c t p l, blk_read6_w V c t l q]
  have ha : (((cfg6.win 2).blk t).view.emb (ix2 p q) 0).val = 4096 * t.val + p.val := by
    show win6_2.index t (0 : Fin 2) * 4096 + 1 * p.val = _; rw [e4]; omega
  have hb : (((cfg6.win 2).blk t).view.emb (ix2 p q) 1).val = q.val := by
    show win6_2.index t (1 : Fin 2) * 16 + 1 * q.val = _; rw [e5]; omega
  congr 1
  · exact congrArg _ (funext fun a => Fin.ext (by
      match a with
      | ⟨0, _⟩ => exact ha.symm
      | ⟨1, _⟩ => rfl))
  · exact congrArg _ (funext fun a => Fin.ext (by
      match a with
      | ⟨0, _⟩ => rfl
      | ⟨1, _⟩ => exact hb.symm))

theorem mem_blk6 (t : Fin cfg6.N) (i : S16384x16.Idx) :
    i ∈ ((cfg6.win 2).blk t).view.set ↔ ∀ a : Fin 2, win6_2.index t a * S4096x16.size a ≤ (i a).val ∧ (i a).val < win6_2.index t a * S4096x16.size a + S4096x16.size a := by
  show i ∈ ((View.whole main_v19).slice (win6_2.rect t)).set ↔ _
  rw [View.set_slice_whole, Rect.mem_set_unit]
  exact Iff.rfl

theorem cover_out6 (i : S16384x16.Idx) : ∃ t : Fin cfg6.N, (cfg6.win 2).flush t = true ∧ i ∈ ((cfg6.win 2).blk t).view.set := by
  have hi0 : (i 0).val < 16384 := idx2_lt0 i
  have hi1 : (i 1).val < 16 := idx2_lt1 i
  have hN : cfg6.N = 4 := N_6
  refine ⟨⟨(i 0).val / 4096, by rw [hN]; omega⟩, flush6_2 _, ?_⟩
  obtain ⟨-, -, -, -, e4, e5⟩ := idx_facts6 ⟨(i 0).val / 4096, by rw [hN]; omega⟩
  rw [mem_blk6]
  intro a
  match a with
  | ⟨0, _⟩ =>
    show win6_2.index _ (0 : Fin 2) * 4096 ≤ (i 0).val ∧ (i 0).val < win6_2.index _ (0 : Fin 2) * 4096 + 4096
    rw [e4]; show (i 0).val / 4096 * 4096 ≤ (i 0).val ∧ (i 0).val < (i 0).val / 4096 * 4096 + 4096; omega
  | ⟨1, _⟩ =>
    show win6_2.index _ (1 : Fin 2) * 16 ≤ (i 1).val ∧ (i 1).val < win6_2.index _ (1 : Fin 2) * 16 + 16
    rw [e5]; omega

/-- The region's output array is the product of its two input arrays as it found them: each row block is written once. -/
theorem final6 (c : Dev nD) : (dat6 (F := Ideal) V c).arrAt 2 cfg6.N = hwG6 (xArr6 V c) (wArr6 V c) :=
  (dat6 V c).arrAt_eq_of_cover 2 _ (fun t _ => flushed_eq6 V c t) cover_out6

end

end Cert.KernelIdeal.Hand

end
-- ==== Proof.Spec.lean ====
import Mathlib.Algebra.BigOperators.Fin
import Mathlib.Logic.Equiv.Fin.Basic
import Mathlib.Data.EReal.Basic

namespace Cert.GcnSpec

/-- A sum over 16384 indices is the sum of its four blocks of 4096. -/
theorem sum_four_blocks {M : Type} [AddCommMonoid M] (f : Fin 16384 → M) :
    ∑ k : Fin 16384, f k
      = (∑ l : Fin 4096, f ⟨4096 * 0 + l.val, by omega⟩) + (∑ l : Fin 4096, f ⟨4096 * 1 + l.val, by omega⟩)
        + (∑ l : Fin 4096, f ⟨4096 * 2 + l.val, by omega⟩) + (∑ l : Fin 4096, f ⟨4096 * 3 + l.val, by omega⟩) := by
  have e : Fin 4 × Fin 4096 ≃ Fin 16384 := finProdFinEquiv
  have he : ∀ (b : Fin 4) (l : Fin 4096), ((finProdFinEquiv : Fin 4 × Fin 4096 ≃ Fin 16384) (b, l)).val = 4096 * b.val + l.val := by
    intro b l
    show l.val + 4096 * b.val = 4096 * b.val + l.val
    omega
  calc ∑ k : Fin 16384, f k
      = ∑ x : Fin 4 × Fin 4096, f ((finProdFinEquiv : Fin 4 × Fin 4096 ≃ Fin 16384) x) := (Equiv.sum_comp _ f).symm
    _ = ∑ b : Fin 4, ∑ l : Fin 4096, f ((finProdFinEquiv : Fin 4 × Fin 4096 ≃ Fin 16384) (b, l)) := Fintype.sum_prod_type _
    _ = ∑ b : Fin 4, ∑ l : Fin 4096, f ⟨4096 * b.val + l.val, by omega⟩ :=
        Finset.sum_congr rfl fun b _ => Finset.sum_congr rfl fun l _ => congrArg f (Fin.ext (he b l))
    _ = _ := by rw [Fin.sum_univ_four]; rfl

end Cert.GcnSpec
-- ==== Proof.KernelIdeal.AggValue1.lean ====
import proofs.«137875_j10720238371126_1_alg».proof.Proof.KernelIdeal.Agg1
import proofs.«137875_j10720238371126_1_alg».proof.Proof.Spec
import proofs.«137875_j10720238371126_1_alg».proof.Proof.LibMatmulPlain

noncomputable section

namespace Cert.KernelIdeal.Hand

open Idealize.ShloMosaic Idealize.ShloMosaic.TcCoe
open Cert.KernelIdeal Cert.KernelIdeal.Gen

open Idealize.ShloMosaic.ValueIdx

/-- Adjacency times features plus the bias row, entry by entry. -/
def aggG1 (A : FVec Ideal S16384x16384 .bf16) (H : FVec Ideal S16384x64 .bf16) (B : FVec Ideal S1x64 .f32) : FVec Ideal S16384x64 .f32 :=
  fun i => (∑ k : Fin 16384, A (ix2 (i 0) k) * H (ix2 k (i 1))) + B (ix2 (0 : Fin 1) (i 1))

theorem pay1_apply1 (p : Fin 2048) (q : Fin 64) : (k1_pay1 (F := Ideal) : FVec Ideal S2048x64 .f32) (ix2 p q) = 0 := by
  unfold k1_pay1
  try dsimp only
  rw [shapeCast_self]
  exact Ideal.ofBits_zero_f32

theorem pay2_apply1 (a : FVec Ideal S2048x64 .f32) (x0 : FVec Ideal S2048x4096 .bf16) (x1 : FVec Ideal S4096x64 .bf16) (p : Fin 2048) (q : Fin 64) :
    (k1_pay2 (F := Ideal) a x0 x1 : FVec Ideal S2048x64 .f32) (ix2 p q) = a (ix2 p q) + ∑ l : Fin 4096, x0 (ix2 p l) * x1 (ix2 l q) := by
  have h := Cert.Gcn.matmul_plain_apply (φ₁ := .bf16) (φ₂ := .bf16) dot_S2048x4096_S4096x64_S2048x64_1_0_0_1_n_n ⟨rfl, rfl, rfl, rfl, rfl, rfl⟩ none x0 x1 p q
  unfold k1_pay2
  try dsimp only
  simp only [shapeCast_self]
  exact congrArg (a (ix2 p q) + ·) h

theorem pay3_apply1 (a : FVec Ideal S2048x64 .f32) (b : FVec Ideal S1x64 .f32) (p : Fin 2048) (q : Fin 64) :
    (k1_pay3 (F := Ideal) a b : FVec Ideal S2048x64 .f32) (ix2 p q) = a (ix2 p q) + b (ix2 (0 : Fin 1) q) := by
  unfold k1_pay3
  try dsimp only
  simp only [shapeCast_self]
  refine congrArg (a (ix2 p q) + ·) ?_
  refine broadcastTo_apply b broadcasts_S1x64_S2048x64 (ix2 p q) (ix2 (0 : Fin 1) q) fun a => ?_
  match a with
  | ⟨0, _⟩ => show (0 : ℕ) = if (1 : ℕ) = 1 then 0 else _; rw [if_pos rfl]
  | ⟨1, _⟩ => show q.val = if (64 : ℕ) = 1 then 0 else q.val; rw [if_neg (by decide)]

section
variable (V : (c : Dev nD) → (b : Ref sig .tc) → Buf (Elt Ideal) ((c : Thread nD τ).loc b))

abbrev adjArr1 (c : Dev nD) : FVec Ideal S16384x16384 .bf16 := V c main_v0
abbrev hwArr1 (c : Dev nD) : FVec Ideal S16384x64 .bf16 := V c main_v2
abbrev biasArr1 (c : Dev nD) : FVec Ideal S1x64 .f32 := V c main_v1
abbrev adjBlk1 (c : Dev nD) (t : Fin cfg1.N) : FVec Ideal S2048x4096 .bf16 := iblk1 V c 0 t
abbrev hwBlk1 (c : Dev nD) (t : Fin cfg1.N) : FVec Ideal S4096x64 .bf16 := iblk1 V c 1 t
abbrev biasBlk1 (c : Dev nD) (t : Fin cfg1.N) : FVec Ideal S1x64 .f32 := iblk1 V c 2 t
abbrev accArr1 (c : Dev nD) (n : ℕ) (hn : n < cfg1.N) : FVec Ideal S2048x64 .f32 := accAt1 V c n hn

theorem idx_facts1 : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

theorem blk_read1_a (c : Dev nD) (t : Fin cfg1.N) (i k : ℕ) (ht : t.val = 4 * i + k) (hk : k < 4) (p : Fin 2048) (l : Fin 4096) :
    adjBlk1 V c t (ix2 p l)
      = adjArr1 V c (ix2 (⟨2048 * i + p.val, by have h := t.isLt; have hN : cfg1.N = 32 := N_1; omega⟩ : Fin 16384)
          (⟨4096 * k + l.val, by omega⟩ : Fin 16384)) := by
  obtain ⟨e0, e1, -, -, -, -, -, -⟩ := idx_facts1 t
  show V c main_v0 (((cfg1.win 0).blk t).view.emb (ix2 p l)) = V c main_v0 _
  refine congrArg _ (funext fun a => Fin.ext ?_)
  match a with
  | ⟨0, _⟩ => show win1_0.index t (0 : Fin 2) * 2048 + 1 * p.val = 2048 * i + p.val; rw [e0]; omega
  | ⟨1, _⟩ => show win1_0.index t (1 : Fin 2) * 4096 + 1 * l.val = 4096 * k + l.val; rw [e1]; omega

theorem blk_read1_h (c : Dev nD) (t : Fin cfg1.N) (i k : ℕ) (ht : t.val = 4 * i + k) (hk : k < 4) (l : Fin 4096) (q : Fin 64) :
    hwBlk1 V c t (ix2 l q) = hwArr1 V c (ix2 (⟨4096 * k + l.val, by omega⟩ : Fin 16384) q) := by
  obtain ⟨-, -, e2, e3, -, -, -, -⟩ := idx_facts1 t
  show V c main_v2 (((cfg1.win 1).blk t).view.emb (ix2 l q)) = V c main_v2 _
  refine congrArg _ (funext fun a => Fin.ext ?_)
  match a with
  | ⟨0, _⟩ => show win1_1.index t (0 : Fin 2) * 4096 + 1 * l.val = 4096 * k + l.val; rw [e2]; omega
  | ⟨1, _⟩ => show win1_1.index t (1 : Fin 2) * 64 + 1 * q.val = q.val; rw [e3]; omega

theorem blk_read1_b (c : Dev nD) (t : Fin cfg1.N) (q : Fin 64) :
    biasBlk1 V c t (ix2 (0 : Fin 1) q) = biasArr1 V c (ix2 (0 : Fin 1) q) := by
  obtain ⟨-, -, -, -, e4, e5, -, -⟩ := idx_facts1 t
  show V c main_v1 (((cfg1.win 2).blk t).view.emb (ix2 (0 : Fin 1) q)) = V c main_v1 _
  refine congrArg _ (funext fun a => Fin.ext ?_)
  match a with
  | ⟨0, _⟩ => show win1_2.index t (0 : Fin 2) * 1 + 1 * 0 = 0; rw [e4]
  | ⟨1, _⟩ => show win1_2.index t (1 : Fin 2) * 64 + 1 * q.val = q.val; rw [e5]; omega

theorem blockSum1 (c : Dev nD) (t : Fin cfg1.N) (i k : ℕ) (ht : t.val = 4 * i + k) (hk : k < 4) (p : Fin 2048) (q : Fin 64) :
    ∑ l : Fin 4096, adjBlk1 V c t (ix2 p l) * hwBlk1 V c t (ix2 l q)
      = ∑ l : Fin 4096, (fun k' : Fin 16384 => adjArr1 V c (ix2 (⟨2048 * i + p.val, by have h := t.isLt; have hN : cfg1.N = 32 := N_1; omega⟩ : Fin 16384) k') * hwArr1 V c (ix2 k' q))
          (⟨4096 * k + l.val, by omega⟩ : Fin 16384) :=
  Finset.sum_congr rfl fun l _ => by rw [blk_read1_a V c t i k ht hk p l, blk_read1_h V c t i k ht hk l q]

/-- After its last column block a row block's accumulator is the four block sums added in order, which is the sum over all nodes. -/
theorem out_entry1 (c : Dev nD) (t : Fin cfg1.N) (i : ℕ) (ht : t.val = 4 * i + 3) (p : Fin 2048) (q : Fin 64) :
    (k1_pay3 (F := Ideal) (accArr1 V c t.val t.isLt) (biasBlk1 V c t) : FVec Ideal S2048x64 .f32) (ix2 p q)
      = aggG1 (adjArr1 V c) (hwArr1 V c) (biasArr1 V c)
          (ix2 (⟨2048 * i + p.val, by have h := t.isLt; have hN : cfg1.N = 32 := N_1; omega⟩ : Fin 16384) q) := by
  have hN : cfg1.N = 32 := N_1
  have htl := t.isLt
  let t1 : Fin cfg1.N := ⟨t.val - 1, by omega⟩
  let t2 : Fin cfg1.N := ⟨t.val - 2, by omega⟩
  let t3 : Fin cfg1.N := ⟨t.val - 3, by omega⟩
  have a3 : accArr1 V c t.val t.isLt = k1_pay2 (accArr1 V c t1.val t1.isLt) (adjBlk1 V c t) (hwBlk1 V c t) :=
    accAt1_B V c t (by omega)
  have a2 : accArr1 V c t1.val t1.isLt = k1_pay2 (accArr1 V c t2.val t2.isLt) (adjBlk1 V c t1) (hwBlk1 V c t1) :=
    accAt1_B V c t1 (by show ¬ (t.val - 1) % 4 = 0; omega)
  have a1 : accArr1 V c t2.val t2.isLt = k1_pay2 (accArr1 V c t3.val t3.isLt) (adjBlk1 V c t2) (hwBlk1 V c t2) :=
    accAt1_B V c t2 (by show ¬ (t.val - 2) % 4 = 0; omega)
  have a0 : accArr1 V c t3.val t3.isLt = k1_pay2 (k1_pay1 (F := Ideal)) (adjBlk1 V c t3) (hwBlk1 V c t3) :=
    accAt1_A V c t3 (by show (t.val - 3) % 4 = 0; omega)
  have e0 : accArr1 V c t3.val t3.isLt (ix2 p q) = 0 + ∑ l : Fin 4096, adjBlk1 V c t3 (ix2 p l) * hwBlk1 V c t3 (ix2 l q) :=
    (congrFun a0 (ix2 p q)).trans ((pay2_apply1 (k1_pay1 (F := Ideal)) (adjBlk1 V c t3) (hwBlk1 V c t3) p q).trans
      (congrArg (· + ∑ l : Fin 4096, adjBlk1 V c t3 (ix2 p l) * hwBlk1 V c t3 (ix2 l q)) (pay1_apply1 p q)))
  have e1 : accArr1 V c t2.val t2.isLt (ix2 p q) = accArr1 V c t3.val t3.isLt (ix2 p q) + ∑ l : Fin 4096, adjBlk1 V c t2 (ix2 p l) * hwBlk1 V c t2 (ix2 l q) :=
    (congrFun a1 (ix2 p q)).trans (pay2_apply1 (accArr1 V c t3.val t3.isLt) (adjBlk1 V c t2) (hwBlk1 V c t2) p q)
  have e2 : accArr1 V c t1.val t1.isLt (ix2 p q) = accArr1 V c t2.val t2.isLt (ix2 p q) + ∑ l : Fin 4096, adjBlk1 V c t1 (ix2 p l) * hwBlk1 V c t1 (ix2 l q) :=
    (congrFun a2 (ix2 p q)).trans (pay2_apply1 (accArr1 V c t2.val t2.isLt) (adjBlk1 V c t1) (hwBlk1 V c t1) p q)
  have e3 : accArr1 V c t.val t.isLt (ix2 p q) = accArr1 V c t1.val t1.isLt (ix2 p q) + ∑ l : Fin 4096, adjBlk1 V c t (ix2 p l) * hwBlk1 V c t (ix2 l q) :=
    (congrFun a3 (ix2 p q)).trans (pay2_apply1 (accArr1 V c t1.val t1.isLt) (adjBlk1 V c t) (hwBlk1 V c t) p q)
  refine (pay3_apply1 (accArr1 V c t.val t.isLt) (biasBlk1 V c t) p q).trans ?_
  rw [e3, e2, e1, e0]
  rw [blockSum1 V c t3 i 0 (by show t.val - 3 = 4 * i + 0; omega) (by omega) p q,
    blockSum1 V c t2 i 1 (by show t.val - 2 = 4 * i + 1; omega) (by omega) p q,
    blockSum1 V c t1 i 2 (by show t.val - 1 = 4 * i + 2; omega) (by omega) p q,
    blockSum1 V c t i 3 ht (by omega) p q, blk_read1_b V c t q]
  unfold aggG1
  show _ = (∑ k' : Fin 16384, (fun k' : Fin 16384 => adjArr1 V c (ix2 (⟨2048 * i + p.val, by omega⟩ : Fin 16384) k') * hwArr1 V c (ix2 k' q)) k') + biasArr1 V c (ix2 (0 : Fin 1) q)
  rw [Cert.GcnSpec.sum_four_blocks, zero_add]

theorem flushed_eq1 (c : Dev nD) (t : Fin cfg1.N) (hf : (cfg1.win 3).flush t = true) :
    (dat1 (F := Ideal) V c).flushed 3 t = ((cfg1.win 3).blk t).view.read (Elt Ideal) (aggG1 (adjArr1 V c) (hwArr1 V c) (biasArr1 V c)) := by
  have h3 : t.val % 4 = 3 := (flush1_3 t).mp hf
  show (cfg1.win 3).cut (grid1.coords t) ((dat1 V c).after 3 t) = _
  rw [after1_3]
  obtain ⟨-, -, -, -, -, -, e6, e7⟩ := idx_facts1 t
  funext j
  obtain ⟨p, q, rfl⟩ : ∃ (p : Fin 2048) (q : Fin 64), j = ix2 p q := ⟨j 0, j 1, eq_ix2 j⟩
  refine (out_entry1 V c t (t.val / 4) (by omega) p q).trans ?_
  show _ = aggG1 (adjArr1 V c) (hwArr1 V c) (biasArr1 V c) (((cfg1.win 3).blk t).view.emb (ix2 p q))
  refine congrArg _ (funext fun a => Fin.ext ?_)
  match a with
  | ⟨0, _⟩ => show 2048 * (t.val / 4) + p.val = win1_3.index t (0 : Fin 2) * 2048 + 1 * p.val; rw [e6]; omega
  | ⟨1, _⟩ => show q.val = win1_3.index t (1 : Fin 2) * 64 + 1 * q.val; rw [e7]; omega

theorem mem_blk1 (t : Fin cfg1.N) (i : S16384x64.Idx) :
    i ∈ ((cfg1.win 3).blk t).view.set ↔ ∀ a : Fin 2, win1_3.index t a * S2048x64.size a ≤ (i a).val ∧ (i a).val < win1_3.index t a * S2048x64.size a + S2048x64.size a := by
  show i ∈ ((View.whole main_v3).slice (win1_3.rect t)).set ↔ _
  rw [View.set_slice_whole, Rect.mem_set_unit]
  exact Iff.rfl

theorem cover_out1 (i : S16384x64.Idx) : ∃ t : Fin cfg1.N, (cfg1.win 3).flush t = true ∧ i ∈ ((cfg1.win 3).blk t).view.set := by
  have hi0 : (i 0).val < 16384 := idx2_lt0 i
  have hi1 : (i 1).val < 64 := idx2_lt1 i
  have hN : cfg1.N = 32 := N_1
  refine ⟨⟨4 * ((i 0).val / 2048) + 3, by rw [hN]; omega⟩, (flush1_3 _).mpr (by show (4 * ((i 0).val / 2048) + 3) % 4 = 3; omega), ?_⟩
  obtain ⟨-, -, -, -, -, -, e6, e7⟩ := idx_facts1 ⟨4 * ((i 0).val / 2048) + 3, by rw [hN]; omega⟩
  rw [mem_blk1]
  intro a
  match a with
  | ⟨0, _⟩ =>
    show win1_3.index _ (0 : Fin 2) * 2048 ≤ (i 0).val ∧ (i 0).val < win1_3.index _ (0 : Fin 2) * 2048 + 2048
    rw [e6]; show (4 * ((i 0).val / 2048) + 3) / 4 * 2048 ≤ (i 0).val ∧ (i 0).val < (4 * ((i 0).val / 2048) + 3) / 4 * 2048 + 2048; omega
  | ⟨1, _⟩ =>
    show win1_3.index _ (1 : Fin 2) * 64 ≤ (i 1).val ∧ (i 1).val < win1_3.index _ (1 : Fin 2) * 64 + 64
    rw [e7]; omega

/-- The region's output array is the aggregation of its three input arrays as it found them: the eight row blocks tile it. -/
theorem final1 (c : Dev nD) : (dat1 (F := Ideal) V c).arrAt 3 cfg1.N = aggG1 (adjArr1 V c) (hwArr1 V c) (biasArr1 V c) :=
  (dat1 V c).arrAt_eq_of_cover 3 _ (fun t hf => flushed_eq1 V c t hf) cover_out1

end

end Cert.KernelIdeal.Hand

end
-- ==== Proof.KernelIdeal.AggValue3.lean ====
import proofs.«137875_j10720238371126_1_alg».proof.Proof.KernelIdeal.Agg3
import proofs.«137875_j10720238371126_1_alg».proof.Proof.KernelIdeal.AggValue1

noncomputable section

namespace Cert.KernelIdeal.Hand

open Idealize.ShloMosaic Idealize.ShloMosaic.TcCoe
open Cert.KernelIdeal Cert.KernelIdeal.Gen

open Idealize.ShloMosaic.ValueIdx

section
variable (V : (c : Dev nD) → (b : Ref sig .tc) → Buf (Elt Ideal) ((c : Thread nD τ).loc b))

abbrev adjArr3 (c : Dev nD) : FVec Ideal S16384x16384 .bf16 := V c main_v0
abbrev hwArr3 (c : Dev nD) : FVec Ideal S16384x64 .bf16 := V c main_v9
abbrev biasArr3 (c : Dev nD) : FVec Ideal S1x64 .f32 := V c main_v6
abbrev adjBlk3 (c : Dev nD) (t : Fin cfg3.N) : FVec Ideal S2048x4096 .bf16 := iblk3 V c 0 t
abbrev hwBlk3 (c : Dev nD) (t : Fin cfg3.N) : FVec Ideal S4096x64 .bf16 := iblk3 V c 1 t
abbrev biasBlk3 (c : Dev nD) (t : Fin cfg3.N) : FVec Ideal S1x64 .f32 := iblk3 V c 2 t
abbrev accArr3 (c : Dev nD) (n : ℕ) (hn : n < cfg3.N) : FVec Ideal S2048x64 .f32 := accAt3 V c n hn

theorem idx_facts3 : ∀ t : Fin cfg3.N, win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = 0 ∧ win3_2.index t (1 : Fin 2) = 0
    ∧ win3_3.index t (0 : Fin 2) = t.val / 4 ∧ win3_3.index t (1 : Fin 2) = 0 :=
  (by decide +kernel : ∀ t : Fin grid3.N, _)

theorem blk_read3_a (c : Dev nD) (t : Fin cfg3.N) (i k : ℕ) (ht : t.val = 4 * i + k) (hk : k < 4) (p : Fin 2048) (l : Fin 4096) :
    adjBlk3 V c t (ix2 p l)
      = adjArr3 V c (ix2 (⟨2048 * i + p.val, by have h := t.isLt; have hN : cfg3.N = 32 := N_3; omega⟩ : Fin 16384)
          (⟨4096 * k + l.val, by omega⟩ : Fin 16384)) := by
  obtain ⟨e0, e1, -, -, -, -, -, -⟩ := idx_facts3 t
  show V c main_v0 (((cfg3.win 0).blk t).view.emb (ix2 p l)) = V c main_v0 _
  refine congrArg _ (funext fun a => Fin.ext ?_)
  match a with
  | ⟨0, _⟩ => show win3_0.index t (0 : Fin 2) * 2048 + 1 * p.val = 2048 * i + p.val; rw [e0]; omega
  | ⟨1, _⟩ => show win3_0.index t (1 : Fin 2) * 4096 + 1 * l.val = 4096 * k + l.val; rw [e1]; omega

theorem blk_read3_h (c : Dev nD) (t : Fin cfg3.N) (i k : ℕ) (ht : t.val = 4 * i + k) (hk : k < 4) (l : Fin 4096) (q : Fin 64) :
    hwBlk3 V c t (ix2 l q) = hwArr3 V c (ix2 (⟨4096 * k + l.val, by omega⟩ : Fin 16384) q) := by
  obtain ⟨-, -, e2, e3, -, -, -, -⟩ := idx_facts3 t
  show V c main_v9 (((cfg3.win 1).blk t).view.emb (ix2 l q)) = V c main_v9 _
  refine congrArg _ (funext fun a => Fin.ext ?_)
  match a with
  | ⟨0, _⟩ => show win3_1.index t (0 : Fin 2) * 4096 + 1 * l.val = 4096 * k + l.val; rw [e2]; omega
  | ⟨1, _⟩ => show win3_1.index t (1 : Fin 2) * 64 + 1 * q.val = q.val; rw [e3]; omega

theorem blk_read3_b (c : Dev nD) (t : Fin cfg3.N) (q : Fin 64) :
    biasBlk3 V c t (ix2 (0 : Fin 1) q) = biasArr3 V c (ix2 (0 : Fin 1) q) := by
  obtain ⟨-, -, -, -, e4, e5, -, -⟩ := idx_facts3 t
  show V c main_v6 (((cfg3.win 2).blk t).view.emb (ix2 (0 : Fin 1) q)) = V c main_v6 _
  refine congrArg _ (funext fun a => Fin.ext ?_)
  match a with
  | ⟨0, _⟩ => show win3_2.index t (0 : Fin 2) * 1 + 1 * 0 = 0; rw [e4]
  | ⟨1, _⟩ => show win3_2.index t (1 : Fin 2) * 64 + 1 * q.val = q.val; rw [e5]; omega

theorem blockSum3 (c : Dev nD) (t : Fin cfg3.N) (i k : ℕ) (ht : t.val = 4 * i + k) (hk : k < 4) (p : Fin 2048) (q : Fin 64) :
    ∑ l : Fin 4096, adjBlk3 V c t (ix2 p l) * hwBlk3 V c t (ix2 l q)
      = ∑ l : Fin 4096, (fun k' : Fin 16384 => adjArr3 V c (ix2 (⟨2048 * i + p.val, by have h := t.isLt; have hN : cfg3.N = 32 := N_3; omega⟩ : Fin 16384) k') * hwArr3 V c (ix2 k' q))
          (⟨4096 * k + l.val, by omega⟩ : Fin 16384) :=
  Finset.sum_congr rfl fun l _ => by rw [blk_read3_a V c t i k ht hk p l, blk_read3_h V c t i k ht hk l q]

/-- After its last column block a row block's accumulator is the four block sums added in order, which is the sum over all nodes. -/
theorem out_entry3 (c : Dev nD) (t : Fin cfg3.N) (i : ℕ) (ht : t.val = 4 * i + 3) (p : Fin 2048) (q : Fin 64) :
    (k1_pay3 (F := Ideal) (accArr3 V c t.val t.isLt) (biasBlk3 V c t) : FVec Ideal S2048x64 .f32) (ix2 p q)
      = aggG1 (adjArr3 V c) (hwArr3 V c) (biasArr3 V c)
          (ix2 (⟨2048 * i + p.val, by have h := t.isLt; have hN : cfg3.N = 32 := N_3; omega⟩ : Fin 16384) q) := by
  have hN : cfg3.N = 32 := N_3
  have htl := t.isLt
  let t1 : Fin cfg3.N := ⟨t.val - 1, by omega⟩
  let t2 : Fin cfg3.N := ⟨t.val - 2, by omega⟩
  let t3 : Fin cfg3.N := ⟨t.val - 3, by omega⟩
  have a3 : accArr3 V c t.val t.isLt = k1_pay2 (accArr3 V c t1.val t1.isLt) (adjBlk3 V c t) (hwBlk3 V c t) :=
    accAt3_B V c t (by omega)
  have a2 : accArr3 V c t1.val t1.isLt = k1_pay2 (accArr3 V c t2.val t2.isLt) (adjBlk3 V c t1) (hwBlk3 V c t1) :=
    accAt3_B V c t1 (by show ¬ (t.val - 1) % 4 = 0; omega)
  have a1 : accArr3 V c t2.val t2.isLt = k1_pay2 (accArr3 V c t3.val t3.isLt) (adjBlk3 V c t2) (hwBlk3 V c t2) :=
    accAt3_B V c t2 (by show ¬ (t.val - 2) % 4 = 0; omega)
  have a0 : accArr3 V c t3.val t3.isLt = k1_pay2 (k1_pay1 (F := Ideal)) (adjBlk3 V c t3) (hwBlk3 V c t3) :=
    accAt3_A V c t3 (by show (t.val - 3) % 4 = 0; omega)
  have e0 : accArr3 V c t3.val t3.isLt (ix2 p q) = 0 + ∑ l : Fin 4096, adjBlk3 V c t3 (ix2 p l) * hwBlk3 V c t3 (ix2 l q) :=
    (congrFun a0 (ix2 p q)).trans ((pay2_apply1 (k1_pay1 (F := Ideal)) (adjBlk3 V c t3) (hwBlk3 V c t3) p q).trans
      (congrArg (· + ∑ l : Fin 4096, adjBlk3 V c t3 (ix2 p l) * hwBlk3 V c t3 (ix2 l q)) (pay1_apply1 p q)))
  have e1 : accArr3 V c t2.val t2.isLt (ix2 p q) = accArr3 V c t3.val t3.isLt (ix2 p q) + ∑ l : Fin 4096, adjBlk3 V c t2 (ix2 p l) * hwBlk3 V c t2 (ix2 l q) :=
    (congrFun a1 (ix2 p q)).trans (pay2_apply1 (accArr3 V c t3.val t3.isLt) (adjBlk3 V c t2) (hwBlk3 V c t2) p q)
  have e2 : accArr3 V c t1.val t1.isLt (ix2 p q) = accArr3 V c t2.val t2.isLt (ix2 p q) + ∑ l : Fin 4096, adjBlk3 V c t1 (ix2 p l) * hwBlk3 V c t1 (ix2 l q) :=
    (congrFun a2 (ix2 p q)).trans (pay2_apply1 (accArr3 V c t2.val t2.isLt) (adjBlk3 V c t1) (hwBlk3 V c t1) p q)
  have e3 : accArr3 V c t.val t.isLt (ix2 p q) = accArr3 V c t1.val t1.isLt (ix2 p q) + ∑ l : Fin 4096, adjBlk3 V c t (ix2 p l) * hwBlk3 V c t (ix2 l q) :=
    (congrFun a3 (ix2 p q)).trans (pay2_apply1 (accArr3 V c t1.val t1.isLt) (adjBlk3 V c t) (hwBlk3 V c t) p q)
  refine (pay3_apply1 (accArr3 V c t.val t.isLt) (biasBlk3 V c t) p q).trans ?_
  rw [e3, e2, e1, e0]
  rw [blockSum3 V c t3 i 0 (by show t.val - 3 = 4 * i + 0; omega) (by omega) p q,
    blockSum3 V c t2 i 1 (by show t.val - 2 = 4 * i + 1; omega) (by omega) p q,
    blockSum3 V c t1 i 2 (by show t.val - 1 = 4 * i + 2; omega) (by omega) p q,
    blockSum3 V c t i 3 ht (by omega) p q, blk_read3_b V c t q]
  unfold aggG1
  show _ = (∑ k' : Fin 16384, (fun k' : Fin 16384 => adjArr3 V c (ix2 (⟨2048 * i + p.val, by omega⟩ : Fin 16384) k') * hwArr3 V c (ix2 k' q)) k') + biasArr3 V c (ix2 (0 : Fin 1) q)
  rw [Cert.GcnSpec.sum_four_blocks, zero_add]

theorem flushed_eq3 (c : Dev nD) (t : Fin cfg3.N) (hf : (cfg3.win 3).flush t = true) :
    (dat3 (F := Ideal) V c).flushed 3 t = ((cfg3.win 3).blk t).view.read (Elt Ideal) (aggG1 (adjArr3 V c) (hwArr3 V c) (biasArr3 V c)) := by
  have h3 : t.val % 4 = 3 := (flush3_3 t).mp hf
  show (cfg3.win 3).cut (grid3.coords t) ((dat3 V c).after 3 t) = _
  rw [after3_3]
  obtain ⟨-, -, -, -, -, -, e6, e7⟩ := idx_facts3 t
  funext j
  obtain ⟨p, q, rfl⟩ : ∃ (p : Fin 2048) (q : Fin 64), j = ix2 p q := ⟨j 0, j 1, eq_ix2 j⟩
  refine (out_entry3 V c t (t.val / 4) (by omega) p q).trans ?_
  show _ = aggG1 (adjArr3 V c) (hwArr3 V c) (biasArr3 V c) (((cfg3.win 3).blk t).view.emb (ix2 p q))
  refine congrArg _ (funext fun a => Fin.ext ?_)
  match a with
  | ⟨0, _⟩ => show 2048 * (t.val / 4) + p.val = win3_3.index t (0 : Fin 2) * 2048 + 1 * p.val; rw [e6]; omega
  | ⟨1, _⟩ => show q.val = win3_3.index t (1 : Fin 2) * 64 + 1 * q.val; rw [e7]; omega

theorem mem_blk3 (t : Fin cfg3.N) (i : S16384x64.Idx) :
    i ∈ ((cfg3.win 3).blk t).view.set ↔ ∀ a : Fin 2, win3_3.index t a * S2048x64.size a ≤ (i a).val ∧ (i a).val < win3_3.index t a * S2048x64.size a + S2048x64.size a := by
  show i ∈ ((View.whole main_v10).slice (win3_3.rect t)).set ↔ _
  rw [View.set_slice_whole, Rect.mem_set_unit]
  exact Iff.rfl

theorem cover_out3 (i : S16384x64.Idx) : ∃ t : Fin cfg3.N, (cfg3.win 3).flush t = true ∧ i ∈ ((cfg3.win 3).blk t).view.set := by
  have hi0 : (i 0).val < 16384 := idx2_lt0 i
  have hi1 : (i 1).val < 64 := idx2_lt1 i
  have hN : cfg3.N = 32 := N_3
  refine ⟨⟨4 * ((i 0).val / 2048) + 3, by rw [hN]; omega⟩, (flush3_3 _).mpr (by show (4 * ((i 0).val / 2048) + 3) % 4 = 3; omega), ?_⟩
  obtain ⟨-, -, -, -, -, -, e6, e7⟩ := idx_facts3 ⟨4 * ((i 0).val / 2048) + 3, by rw [hN]; omega⟩
  rw [mem_blk3]
  intro a
  match a with
  | ⟨0, _⟩ =>
    show win3_3.index _ (0 : Fin 2) * 2048 ≤ (i 0).val ∧ (i 0).val < win3_3.index _ (0 : Fin 2) * 2048 + 2048
    rw [e6]; show (4 * ((i 0).val / 2048) + 3) / 4 * 2048 ≤ (i 0).val ∧ (i 0).val < (4 * ((i 0).val / 2048) + 3) / 4 * 2048 + 2048; omega
  | ⟨1, _⟩ =>
    show win3_3.index _ (1 : Fin 2) * 64 ≤ (i 1).val ∧ (i 1).val < win3_3.index _ (1 : Fin 2) * 64 + 64
    rw [e7]; omega

/-- The region's output array is the aggregation of its three input arrays as it found them: the eight row blocks tile it. -/
theorem final3 (c : Dev nD) : (dat3 (F := Ideal) V c).arrAt 3 cfg3.N = aggG1 (adjArr3 V c) (hwArr3 V c) (biasArr3 V c) :=
  (dat3 V c).arrAt_eq_of_cover 3 _ (fun t hf => flushed_eq3 V c t hf) cover_out3

end

end Cert.KernelIdeal.Hand

end
-- ==== Proof.KernelIdeal.AggValue5.lean ====
import proofs.«137875_j10720238371126_1_alg».proof.Proof.KernelIdeal.Agg5
import proofs.«137875_j10720238371126_1_alg».proof.Proof.KernelIdeal.AggValue1

noncomputable section

namespace Cert.KernelIdeal.Hand

open Idealize.ShloMosaic Idealize.ShloMosaic.TcCoe
open Cert.KernelIdeal Cert.KernelIdeal.Gen

open Idealize.ShloMosaic.ValueIdx

section
variable (V : (c : Dev nD) → (b : Ref sig .tc) → Buf (Elt Ideal) ((c : Thread nD τ).loc b))

abbrev adjArr5 (c : Dev nD) : FVec Ideal S16384x16384 .bf16 := V c main_v0
abbrev hwArr5 (c : Dev nD) : FVec Ideal S16384x64 .bf16 := V c main_v16
abbrev biasArr5 (c : Dev nD) : FVec Ideal S1x64 .f32 := V c main_v13
abbrev adjBlk5 (c : Dev nD) (t : Fin cfg5.N) : FVec Ideal S2048x4096 .bf16 := iblk5 V c 0 t
abbrev hwBlk5 (c : Dev nD) (t : Fin cfg5.N) : FVec Ideal S4096x64 .bf16 := iblk5 V c 1 t
abbrev biasBlk5 (c : Dev nD) (t : Fin cfg5.N) : FVec Ideal S1x64 .f32 := iblk5 V c 2 t
abbrev accArr5 (c : Dev nD) (n : ℕ) (hn : n < cfg5.N) : FVec Ideal S2048x64 .f32 := accAt5 V c n hn

theorem idx_facts5 : ∀ t : Fin cfg5.N, win5_0.index t (0 : Fin 2) = t.val / 4 ∧ win5_0.index t (1 : Fin 2) = t.val % 4
    ∧ win5_1.index t (0 : Fin 2) = t.val % 4 ∧ win5_1.index t (1 : Fin 2) = 0
    ∧ win5_2.index t (0 : Fin 2) = 0 ∧ win5_2.index t (1 : Fin 2) = 0
    ∧ win5_3.index t (0 : Fin 2) = t.val / 4 ∧ win5_3.index t (1 : Fin 2) = 0 :=
  (by decide +kernel : ∀ t : Fin grid5.N, _)

theorem blk_read5_a (c : Dev nD) (t : Fin cfg5.N) (i k : ℕ) (ht : t.val = 4 * i + k) (hk : k < 4) (p : Fin 2048) (l : Fin 4096) :
    adjBlk5 V c t (ix2 p l)
      = adjArr5 V c (ix2 (⟨2048 * i + p.val, by have h := t.isLt; have hN : cfg5.N = 32 := N_5; omega⟩ : Fin 16384)
          (⟨4096 * k + l.val, by omega⟩ : Fin 16384)) := by
  obtain ⟨e0, e1, -, -, -, -, -, -⟩ := idx_facts5 t
  show V c main_v0 (((cfg5.win 0).blk t).view.emb (ix2 p l)) = V c main_v0 _
  refine congrArg _ (funext fun a => Fin.ext ?_)
  match a with
  | ⟨0, _⟩ => show win5_0.index t (0 : Fin 2) * 2048 + 1 * p.val = 2048 * i + p.val; rw [e0]; omega
  | ⟨1, _⟩ => show win5_0.index t (1 : Fin 2) * 4096 + 1 * l.val = 4096 * k + l.val; rw [e1]; omega

theorem blk_read5_h (c : Dev nD) (t : Fin cfg5.N) (i k : ℕ) (ht : t.val = 4 * i + k) (hk : k < 4) (l : Fin 4096) (q : Fin 64) :
    hwBlk5 V c t (ix2 l q) = hwArr5 V c (ix2 (⟨4096 * k + l.val, by omega⟩ : Fin 16384) q) := by
  obtain ⟨-, -, e2, e3, -, -, -, -⟩ := idx_facts5 t
  show V c main_v16 (((cfg5.win 1).blk t).view.emb (ix2 l q)) = V c main_v16 _
  refine congrArg _ (funext fun a => Fin.ext ?_)
  match a with
  | ⟨0, _⟩ => show win5_1.index t (0 : Fin 2) * 4096 + 1 * l.val = 4096 * k + l.val; rw [e2]; omega
  | ⟨1, _⟩ => show win5_1.index t (1 : Fin 2) * 64 + 1 * q.val = q.val; rw [e3]; omega

theorem blk_read5_b (c : Dev nD) (t : Fin cfg5.N) (q : Fin 64) :
    biasBlk5 V c t (ix2 (0 : Fin 1) q) = biasArr5 V c (ix2 (0 : Fin 1) q) := by
  obtain ⟨-, -, -, -, e4, e5, -, -⟩ := idx_facts5 t
  show V c main_v13 (((cfg5.win 2).blk t).view.emb (ix2 (0 : Fin 1) q)) = V c main_v13 _
  refine congrArg _ (funext fun a => Fin.ext ?_)
  match a with
  | ⟨0, _⟩ => show win5_2.index t (0 : Fin 2) * 1 + 1 * 0 = 0; rw [e4]
  | ⟨1, _⟩ => show win5_2.index t (1 : Fin 2) * 64 + 1 * q.val = q.val; rw [e5]; omega

theorem blockSum5 (c : Dev nD) (t : Fin cfg5.N) (i k : ℕ) (ht : t.val = 4 * i + k) (hk : k < 4) (p : Fin 2048) (q : Fin 64) :
    ∑ l : Fin 4096, adjBlk5 V c t (ix2 p l) * hwBlk5 V c t (ix2 l q)
      = ∑ l : Fin 4096, (fun k' : Fin 16384 => adjArr5 V c (ix2 (⟨2048 * i + p.val, by have h := t.isLt; have hN : cfg5.N = 32 := N_5; omega⟩ : Fin 16384) k') * hwArr5 V c (ix2 k' q))
          (⟨4096 * k + l.val, by omega⟩ : Fin 16384) :=
  Finset.sum_congr rfl fun l _ => by rw [blk_read5_a V c t i k ht hk p l, blk_read5_h V c t i k ht hk l q]

/-- After its last column block a row block's accumulator is the four block sums added in order, which is the sum over all nodes. -/
theorem out_entry5 (c : Dev nD) (t : Fin cfg5.N) (i : ℕ) (ht : t.val = 4 * i + 3) (p : Fin 2048) (q : Fin 64) :
    (k1_pay3 (F := Ideal) (accArr5 V c t.val t.isLt) (biasBlk5 V c t) : FVec Ideal S2048x64 .f32) (ix2 p q)
      = aggG1 (adjArr5 V c) (hwArr5 V c) (biasArr5 V c)
          (ix2 (⟨2048 * i + p.val, by have h := t.isLt; have hN : cfg5.N = 32 := N_5; omega⟩ : Fin 16384) q) := by
  have hN : cfg5.N = 32 := N_5
  have htl := t.isLt
  let t1 : Fin cfg5.N := ⟨t.val - 1, by omega⟩
  let t2 : Fin cfg5.N := ⟨t.val - 2, by omega⟩
  let t3 : Fin cfg5.N := ⟨t.val - 3, by omega⟩
  have a3 : accArr5 V c t.val t.isLt = k1_pay2 (accArr5 V c t1.val t1.isLt) (adjBlk5 V c t) (hwBlk5 V c t) :=
    accAt5_B V c t (by omega)
  have a2 : accArr5 V c t1.val t1.isLt = k1_pay2 (accArr5 V c t2.val t2.isLt) (adjBlk5 V c t1) (hwBlk5 V c t1) :=
    accAt5_B V c t1 (by show ¬ (t.val - 1) % 4 = 0; omega)
  have a1 : accArr5 V c t2.val t2.isLt = k1_pay2 (accArr5 V c t3.val t3.isLt) (adjBlk5 V c t2) (hwBlk5 V c t2) :=
    accAt5_B V c t2 (by show ¬ (t.val - 2) % 4 = 0; omega)
  have a0 : accArr5 V c t3.val t3.isLt = k1_pay2 (k1_pay1 (F := Ideal)) (adjBlk5 V c t3) (hwBlk5 V c t3) :=
    accAt5_A V c t3 (by show (t.val - 3) % 4 = 0; omega)
  have e0 : accArr5 V c t3.val t3.isLt (ix2 p q) = 0 + ∑ l : Fin 4096, adjBlk5 V c t3 (ix2 p l) * hwBlk5 V c t3 (ix2 l q) :=
    (congrFun a0 (ix2 p q)).trans ((pay2_apply1 (k1_pay1 (F := Ideal)) (adjBlk5 V c t3) (hwBlk5 V c t3) p q).trans
      (congrArg (· + ∑ l : Fin 4096, adjBlk5 V c t3 (ix2 p l) * hwBlk5 V c t3 (ix2 l q)) (pay1_apply1 p q)))
  have e1 : accArr5 V c t2.val t2.isLt (ix2 p q) = accArr5 V c t3.val t3.isLt (ix2 p q) + ∑ l : Fin 4096, adjBlk5 V c t2 (ix2 p l) * hwBlk5 V c t2 (ix2 l q) :=
    (congrFun a1 (ix2 p q)).trans (pay2_apply1 (accArr5 V c t3.val t3.isLt) (adjBlk5 V c t2) (hwBlk5 V c t2) p q)
  have e2 : accArr5 V c t1.val t1.isLt (ix2 p q) = accArr5 V c t2.val t2.isLt (ix2 p q) + ∑ l : Fin 4096, adjBlk5 V c t1 (ix2 p l) * hwBlk5 V c t1 (ix2 l q) :=
    (congrFun a2 (ix2 p q)).trans (pay2_apply1 (accArr5 V c t2.val t2.isLt) (adjBlk5 V c t1) (hwBlk5 V c t1) p q)
  have e3 : accArr5 V c t.val t.isLt (ix2 p q) = accArr5 V c t1.val t1.isLt (ix2 p q) + ∑ l : Fin 4096, adjBlk5 V c t (ix2 p l) * hwBlk5 V c t (ix2 l q) :=
    (congrFun a3 (ix2 p q)).trans (pay2_apply1 (accArr5 V c t1.val t1.isLt) (adjBlk5 V c t) (hwBlk5 V c t) p q)
  refine (pay3_apply1 (accArr5 V c t.val t.isLt) (biasBlk5 V c t) p q).trans ?_
  rw [e3, e2, e1, e0]
  rw [blockSum5 V c t3 i 0 (by show t.val - 3 = 4 * i + 0; omega) (by omega) p q,
    blockSum5 V c t2 i 1 (by show t.val - 2 = 4 * i + 1; omega) (by omega) p q,
    blockSum5 V c t1 i 2 (by show t.val - 1 = 4 * i + 2; omega) (by omega) p q,
    blockSum5 V c t i 3 ht (by omega) p q, blk_read5_b V c t q]
  unfold aggG1
  show _ = (∑ k' : Fin 16384, (fun k' : Fin 16384 => adjArr5 V c (ix2 (⟨2048 * i + p.val, by omega⟩ : Fin 16384) k') * hwArr5 V c (ix2 k' q)) k') + biasArr5 V c (ix2 (0 : Fin 1) q)
  rw [Cert.GcnSpec.sum_four_blocks, zero_add]

theorem flushed_eq5 (c : Dev nD) (t : Fin cfg5.N) (hf : (cfg5.win 3).flush t = true) :
    (dat5 (F := Ideal) V c).flushed 3 t = ((cfg5.win 3).blk t).view.read (Elt Ideal) (aggG1 (adjArr5 V c) (hwArr5 V c) (biasArr5 V c)) := by
  have h3 : t.val % 4 = 3 := (flush5_3 t).mp hf
  show (cfg5.win 3).cut (grid5.coords t) ((dat5 V c).after 3 t) = _
  rw [after5_3]
  obtain ⟨-, -, -, -, -, -, e6, e7⟩ := idx_facts5 t
  funext j
  obtain ⟨p, q, rfl⟩ : ∃ (p : Fin 2048) (q : Fin 64), j = ix2 p q := ⟨j 0, j 1, eq_ix2 j⟩
  refine (out_entry5 V c t (t.val / 4) (by omega) p q).trans ?_
  show _ = aggG1 (adjArr5 V c) (hwArr5 V c) (biasArr5 V c) (((cfg5.win 3).blk t).view.emb (ix2 p q))
  refine congrArg _ (funext fun a => Fin.ext ?_)
  match a with
  | ⟨0, _⟩ => show 2048 * (t.val / 4) + p.val = win5_3.index t (0 : Fin 2) * 2048 + 1 * p.val; rw [e6]; omega
  | ⟨1, _⟩ => show q.val = win5_3.index t (1 : Fin 2) * 64 + 1 * q.val; rw [e7]; omega

theorem mem_blk5 (t : Fin cfg5.N) (i : S16384x64.Idx) :
    i ∈ ((cfg5.win 3).blk t).view.set ↔ ∀ a : Fin 2, win5_3.index t a * S2048x64.size a ≤ (i a).val ∧ (i a).val < win5_3.index t a * S2048x64.size a + S2048x64.size a := by
  show i ∈ ((View.whole main_v17).slice (win5_3.rect t)).set ↔ _
  rw [View.set_slice_whole, Rect.mem_set_unit]
  exact Iff.rfl

theorem cover_out5 (i : S16384x64.Idx) : ∃ t : Fin cfg5.N, (cfg5.win 3).flush t = true ∧ i ∈ ((cfg5.win 3).blk t).view.set := by
  have hi0 : (i 0).val < 16384 := idx2_lt0 i
  have hi1 : (i 1).val < 64 := idx2_lt1 i
  have hN : cfg5.N = 32 := N_5
  refine ⟨⟨4 * ((i 0).val / 2048) + 3, by rw [hN]; omega⟩, (flush5_3 _).mpr (by show (4 * ((i 0).val / 2048) + 3) % 4 = 3; omega), ?_⟩
  obtain ⟨-, -, -, -, -, -, e6, e7⟩ := idx_facts5 ⟨4 * ((i 0).val / 2048) + 3, by rw [hN]; omega⟩
  rw [mem_blk5]
  intro a
  match a with
  | ⟨0, _⟩ =>
    show win5_3.index _ (0 : Fin 2) * 2048 ≤ (i 0).val ∧ (i 0).val < win5_3.index _ (0 : Fin 2) * 2048 + 2048
    rw [e6]; show (4 * ((i 0).val / 2048) + 3) / 4 * 2048 ≤ (i 0).val ∧ (i 0).val < (4 * ((i 0).val / 2048) + 3) / 4 * 2048 + 2048; omega
  | ⟨1, _⟩ =>
    show win5_3.index _ (1 : Fin 2) * 64 ≤ (i 1).val ∧ (i 1).val < win5_3.index _ (1 : Fin 2) * 64 + 64
    rw [e7]; omega

/-- The region's output array is the aggregation of its three input arrays as it found them: the eight row blocks tile it. -/
theorem final5 (c : Dev nD) : (dat5 (F := Ideal) V c).arrAt 3 cfg5.N = aggG1 (adjArr5 V c) (hwArr5 V c) (biasArr5 V c) :=
  (dat5 V c).arrAt_eq_of_cover 3 _ (fun t hf => flushed_eq5 V c t hf) cover_out5

end

end Cert.KernelIdeal.Hand

end
-- ==== Proof.KernelIdeal.AggValue7.lean ====
import proofs.«137875_j10720238371126_1_alg».proof.Proof.KernelIdeal.Agg7
import proofs.«137875_j10720238371126_1_alg».proof.Proof.Spec
import proofs.«137875_j10720238371126_1_alg».proof.Proof.LibMatmulPlain

noncomputable section

namespace Cert.KernelIdeal.Hand

open Idealize.ShloMosaic Idealize.ShloMosaic.TcCoe
open Cert.KernelIdeal Cert.KernelIdeal.Gen

open Idealize.ShloMosaic.ValueIdx

/-- Adjacency times features plus the bias row, entry by entry. -/
def aggG7 (A : FVec Ideal S16384x16384 .bf16) (H : FVec Ideal S16384x16 .bf16) (B : FVec Ideal S1x16 .f32) : FVec Ideal S16384x16 .f32 :=
  fun i => (∑ k : Fin 16384, A (ix2 (i 0) k) * H (ix2 k (i 1))) + B (ix2 (0 : Fin 1) (i 1))

theorem pay1_apply7 (p : Fin 2048) (q : Fin 16) : (k7_pay1 (F := Ideal) : FVec Ideal S2048x16 .f32) (ix2 p q) = 0 := by
  unfold k7_pay1
  try dsimp only
  rw [shapeCast_self]
  exact Ideal.ofBits_zero_f32

theorem pay2_apply7 (a : FVec Ideal S2048x16 .f32) (x0 : FVec Ideal S2048x4096 .bf16) (x1 : FVec Ideal S4096x16 .bf16) (p : Fin 2048) (q : Fin 16) :
    (k7_pay2 (F := Ideal) a x0 x1 : FVec Ideal S2048x16 .f32) (ix2 p q) = a (ix2 p q) + ∑ l : Fin 4096, x0 (ix2 p l) * x1 (ix2 l q) := by
  have h := Cert.Gcn.matmul_plain_apply (φ₁ := .bf16) (φ₂ := .bf16) dot_S2048x4096_S4096x16_S2048x16_1_0_0_1_n_n ⟨rfl, rfl, rfl, rfl, rfl, rfl⟩ none x0 x1 p q
  unfold k7_pay2
  try dsimp only
  simp only [shapeCast_self]
  exact congrArg (a (ix2 p q) + ·) h

theorem pay3_apply7 (a : FVec Ideal S2048x16 .f32) (b : FVec Ideal S1x16 .f32) (p : Fin 2048) (q : Fin 16) :
    (k7_pay3 (F := Ideal) a b : FVec Ideal S2048x16 .f32) (ix2 p q) = a (ix2 p q) + b (ix2 (0 : Fin 1) q) := by
  unfold k7_pay3
  try dsimp only
  simp only [shapeCast_self]
  refine congrArg (a (ix2 p q) + ·) ?_
  refine broadcastTo_apply b broadcasts_S1x16_S2048x16 (ix2 p q) (ix2 (0 : Fin 1) q) fun a => ?_
  match a with
  | ⟨0, _⟩ => show (0 : ℕ) = if (1 : ℕ) = 1 then 0 else _; rw [if_pos rfl]
  | ⟨1, _⟩ => show q.val = if (16 : ℕ) = 1 then 0 else q.val; rw [if_neg (by decide)]

section
variable (V : (c : Dev nD) → (b : Ref sig .tc) → Buf (Elt Ideal) ((c : Thread nD τ).loc b))

abbrev adjArr7 (c : Dev nD) : FVec Ideal S16384x16384 .bf16 := V c main_v0
abbrev hwArr7 (c : Dev nD) : FVec Ideal S16384x16 .bf16 := V c main_v19
abbrev biasArr7 (c : Dev nD) : FVec Ideal S1x16 .f32 := V c main_v18
abbrev adjBlk7 (c : Dev nD) (t : Fin cfg7.N) : FVec Ideal S2048x4096 .bf16 := iblk7 V c 0 t
abbrev hwBlk7 (c : Dev nD) (t : Fin cfg7.N) : FVec Ideal S4096x16 .bf16 := iblk7 V c 1 t
abbrev biasBlk7 (c : Dev nD) (t : Fin cfg7.N) : FVec Ideal S1x16 .f32 := iblk7 V c 2 t
abbrev accArr7 (c : Dev nD) (n : ℕ) (hn : n < cfg7.N) : FVec Ideal S2048x16 .f32 := accAt7 V c n hn

theorem idx_facts7 : ∀ t : Fin cfg7.N, win7_0.index t (0 : Fin 2) = t.val / 4 ∧ win7_0.index t (1 : Fin 2) = t.val % 4
    ∧ win7_1.index t (0 : Fin 2) = t.val % 4 ∧ win7_1.index t (1 : Fin 2) = 0
    ∧ win7_2.index t (0 : Fin 2) = 0 ∧ win7_2.index t (1 : Fin 2) = 0
    ∧ win7_3.index t (0 : Fin 2) = t.val / 4 ∧ win7_3.index t (1 : Fin 2) = 0 :=
  (by decide +kernel : ∀ t : Fin grid7.N, _)

theorem blk_read7_a (c : Dev nD) (t : Fin cfg7.N) (i k : ℕ) (ht : t.val = 4 * i + k) (hk : k < 4) (p : Fin 2048) (l : Fin 4096) :
    adjBlk7 V c t (ix2 p l)
      = adjArr7 V c (ix2 (⟨2048 * i + p.val, by have h := t.isLt; have hN : cfg7.N = 32 := N_7; omega⟩ : Fin 16384)
          (⟨4096 * k + l.val, by omega⟩ : Fin 16384)) := by
  obtain ⟨e0, e1, -, -, -, -, -, -⟩ := idx_facts7 t
  show V c main_v0 (((cfg7.win 0).blk t).view.emb (ix2 p l)) = V c main_v0 _
  refine congrArg _ (funext fun a => Fin.ext ?_)
  match a with
  | ⟨0, _⟩ => show win7_0.index t (0 : Fin 2) * 2048 + 1 * p.val = 2048 * i + p.val; rw [e0]; omega
  | ⟨1, _⟩ => show win7_0.index t (1 : Fin 2) * 4096 + 1 * l.val = 4096 * k + l.val; rw [e1]; omega

theorem blk_read7_h (c : Dev nD) (t : Fin cfg7.N) (i k : ℕ) (ht : t.val = 4 * i + k) (hk : k < 4) (l : Fin 4096) (q : Fin 16) :
    hwBlk7 V c t (ix2 l q) = hwArr7 V c (ix2 (⟨4096 * k + l.val, by omega⟩ : Fin 16384) q) := by
  obtain ⟨-, -, e2, e3, -, -, -, -⟩ := idx_facts7 t
  show V c main_v19 (((cfg7.win 1).blk t).view.emb (ix2 l q)) = V c main_v19 _
  refine congrArg _ (funext fun a => Fin.ext ?_)
  match a with
  | ⟨0, _⟩ => show win7_1.index t (0 : Fin 2) * 4096 + 1 * l.val = 4096 * k + l.val; rw [e2]; omega
  | ⟨1, _⟩ => show win7_1.index t (1 : Fin 2) * 16 + 1 * q.val = q.val; rw [e3]; omega

theorem blk_read7_b (c : Dev nD) (t : Fin cfg7.N) (q : Fin 16) :
    biasBlk7 V c t (ix2 (0 : Fin 1) q) = biasArr7 V c (ix2 (0 : Fin 1) q) := by
  obtain ⟨-, -, -, -, e4, e5, -, -⟩ := idx_facts7 t
  show V c main_v18 (((cfg7.win 2).blk t).view.emb (ix2 (0 : Fin 1) q)) = V c main_v18 _
  refine congrArg _ (funext fun a => Fin.ext ?_)
  match a with
  | ⟨0, _⟩ => show win7_2.index t (0 : Fin 2) * 1 + 1 * 0 = 0; rw [e4]
  | ⟨1, _⟩ => show win7_2.index t (1 : Fin 2) * 16 + 1 * q.val = q.val; rw [e5]; omega

theorem blockSum7 (c : Dev nD) (t : Fin cfg7.N) (i k : ℕ) (ht : t.val = 4 * i + k) (hk : k < 4) (p : Fin 2048) (q : Fin 16) :
    ∑ l : Fin 4096, adjBlk7 V c t (ix2 p l) * hwBlk7 V c t (ix2 l q)
      = ∑ l : Fin 4096, (fun k' : Fin 16384 => adjArr7 V c (ix2 (⟨2048 * i + p.val, by have h := t.isLt; have hN : cfg7.N = 32 := N_7; omega⟩ : Fin 16384) k') * hwArr7 V c (ix2 k' q))
          (⟨4096 * k + l.val, by omega⟩ : Fin 16384) :=
  Finset.sum_congr rfl fun l _ => by rw [blk_read7_a V c t i k ht hk p l, blk_read7_h V c t i k ht hk l q]

/-- After its last column block a row block's accumulator is the four block sums added in order, which is the sum over all nodes. -/
theorem out_entry7 (c : Dev nD) (t : Fin cfg7.N) (i : ℕ) (ht : t.val = 4 * i + 3) (p : Fin 2048) (q : Fin 16) :
    (k7_pay3 (F := Ideal) (accArr7 V c t.val t.isLt) (biasBlk7 V c t) : FVec Ideal S2048x16 .f32) (ix2 p q)
      = aggG7 (adjArr7 V c) (hwArr7 V c) (biasArr7 V c)
          (ix2 (⟨2048 * i + p.val, by have h := t.isLt; have hN : cfg7.N = 32 := N_7; omega⟩ : Fin 16384) q) := by
  have hN : cfg7.N = 32 := N_7
  have htl := t.isLt
  let t1 : Fin cfg7.N := ⟨t.val - 1, by omega⟩
  let t2 : Fin cfg7.N := ⟨t.val - 2, by omega⟩
  let t3 : Fin cfg7.N := ⟨t.val - 3, by omega⟩
  have a3 : accArr7 V c t.val t.isLt = k7_pay2 (accArr7 V c t1.val t1.isLt) (adjBlk7 V c t) (hwBlk7 V c t) :=
    accAt7_B V c t (by omega)
  have a2 : accArr7 V c t1.val t1.isLt = k7_pay2 (accArr7 V c t2.val t2.isLt) (adjBlk7 V c t1) (hwBlk7 V c t1) :=
    accAt7_B V c t1 (by show ¬ (t.val - 1) % 4 = 0; omega)
  have a1 : accArr7 V c t2.val t2.isLt = k7_pay2 (accArr7 V c t3.val t3.isLt) (adjBlk7 V c t2) (hwBlk7 V c t2) :=
    accAt7_B V c t2 (by show ¬ (t.val - 2) % 4 = 0; omega)
  have a0 : accArr7 V c t3.val t3.isLt = k7_pay2 (k7_pay1 (F := Ideal)) (adjBlk7 V c t3) (hwBlk7 V c t3) :=
    accAt7_A V c t3 (by show (t.val - 3) % 4 = 0; omega)
  have e0 : accArr7 V c t3.val t3.isLt (ix2 p q) = 0 + ∑ l : Fin 4096, adjBlk7 V c t3 (ix2 p l) * hwBlk7 V c t3 (ix2 l q) :=
    (congrFun a0 (ix2 p q)).trans ((pay2_apply7 (k7_pay1 (F := Ideal)) (adjBlk7 V c t3) (hwBlk7 V c t3) p q).trans
      (congrArg (· + ∑ l : Fin 4096, adjBlk7 V c t3 (ix2 p l) * hwBlk7 V c t3 (ix2 l q)) (pay1_apply7 p q)))
  have e1 : accArr7 V c t2.val t2.isLt (ix2 p q) = accArr7 V c t3.val t3.isLt (ix2 p q) + ∑ l : Fin 4096, adjBlk7 V c t2 (ix2 p l) * hwBlk7 V c t2 (ix2 l q) :=
    (congrFun a1 (ix2 p q)).trans (pay2_apply7 (accArr7 V c t3.val t3.isLt) (adjBlk7 V c t2) (hwBlk7 V c t2) p q)
  have e2 : accArr7 V c t1.val t1.isLt (ix2 p q) = accArr7 V c t2.val t2.isLt (ix2 p q) + ∑ l : Fin 4096, adjBlk7 V c t1 (ix2 p l) * hwBlk7 V c t1 (ix2 l q) :=
    (congrFun a2 (ix2 p q)).trans (pay2_apply7 (accArr7 V c t2.val t2.isLt) (adjBlk7 V c t1) (hwBlk7 V c t1) p q)
  have e3 : accArr7 V c t.val t.isLt (ix2 p q) = accArr7 V c t1.val t1.isLt (ix2 p q) + ∑ l : Fin 4096, adjBlk7 V c t (ix2 p l) * hwBlk7 V c t (ix2 l q) :=
    (congrFun a3 (ix2 p q)).trans (pay2_apply7 (accArr7 V c t1.val t1.isLt) (adjBlk7 V c t) (hwBlk7 V c t) p q)
  refine (pay3_apply7 (accArr7 V c t.val t.isLt) (biasBlk7 V c t) p q).trans ?_
  rw [e3, e2, e1, e0]
  rw [blockSum7 V c t3 i 0 (by show t.val - 3 = 4 * i + 0; omega) (by omega) p q,
    blockSum7 V c t2 i 1 (by show t.val - 2 = 4 * i + 1; omega) (by omega) p q,
    blockSum7 V c t1 i 2 (by show t.val - 1 = 4 * i + 2; omega) (by omega) p q,
    blockSum7 V c t i 3 ht (by omega) p q, blk_read7_b V c t q]
  unfold aggG7
  show _ = (∑ k' : Fin 16384, (fun k' : Fin 16384 => adjArr7 V c (ix2 (⟨2048 * i + p.val, by omega⟩ : Fin 16384) k') * hwArr7 V c (ix2 k' q)) k') + biasArr7 V c (ix2 (0 : Fin 1) q)
  rw [Cert.GcnSpec.sum_four_blocks, zero_add]

theorem flushed_eq7 (c : Dev nD) (t : Fin cfg7.N) (hf : (cfg7.win 3).flush t = true) :
    (dat7 (F := Ideal) V c).flushed 3 t = ((cfg7.win 3).blk t).view.read (Elt Ideal) (aggG7 (adjArr7 V c) (hwArr7 V c) (biasArr7 V c)) := by
  have h3 : t.val % 4 = 3 := (flush7_3 t).mp hf
  show (cfg7.win 3).cut (grid7.coords t) ((dat7 V c).after 3 t) = _
  rw [after7_3]
  obtain ⟨-, -, -, -, -, -, e6, e7⟩ := idx_facts7 t
  funext j
  obtain ⟨p, q, rfl⟩ : ∃ (p : Fin 2048) (q : Fin 16), j = ix2 p q := ⟨j 0, j 1, eq_ix2 j⟩
  refine (out_entry7 V c t (t.val / 4) (by omega) p q).trans ?_
  show _ = aggG7 (adjArr7 V c) (hwArr7 V c) (biasArr7 V c) (((cfg7.win 3).blk t).view.emb (ix2 p q))
  refine congrArg _ (funext fun a => Fin.ext ?_)
  match a with
  | ⟨0, _⟩ => show 2048 * (t.val / 4) + p.val = win7_3.index t (0 : Fin 2) * 2048 + 1 * p.val; rw [e6]; omega
  | ⟨1, _⟩ => show q.val = win7_3.index t (1 : Fin 2) * 16 + 1 * q.val; rw [e7]; omega

theorem mem_blk7 (t : Fin cfg7.N) (i : S16384x16.Idx) :
    i ∈ ((cfg7.win 3).blk t).view.set ↔ ∀ a : Fin 2, win7_3.index t a * S2048x16.size a ≤ (i a).val ∧ (i a).val < win7_3.index t a * S2048x16.size a + S2048x16.size a := by
  show i ∈ ((View.whole main_v20).slice (win7_3.rect t)).set ↔ _
  rw [View.set_slice_whole, Rect.mem_set_unit]
  exact Iff.rfl

theorem cover_out7 (i : S16384x16.Idx) : ∃ t : Fin cfg7.N, (cfg7.win 3).flush t = true ∧ i ∈ ((cfg7.win 3).blk t).view.set := by
  have hi0 : (i 0).val < 16384 := idx2_lt0 i
  have hi1 : (i 1).val < 16 := idx2_lt1 i
  have hN : cfg7.N = 32 := N_7
  refine ⟨⟨4 * ((i 0).val / 2048) + 3, by rw [hN]; omega⟩, (flush7_3 _).mpr (by show (4 * ((i 0).val / 2048) + 3) % 4 = 3; omega), ?_⟩
  obtain ⟨-, -, -, -, -, -, e6, e7⟩ := idx_facts7 ⟨4 * ((i 0).val / 2048) + 3, by rw [hN]; omega⟩
  rw [mem_blk7]
  intro a
  match a with
  | ⟨0, _⟩ =>
    show win7_3.index _ (0 : Fin 2) * 2048 ≤ (i 0).val ∧ (i 0).val < win7_3.index _ (0 : Fin 2) * 2048 + 2048
    rw [e6]; show (4 * ((i 0).val / 2048) + 3) / 4 * 2048 ≤ (i 0).val ∧ (i 0).val < (4 * ((i 0).val / 2048) + 3) / 4 * 2048 + 2048; omega
  | ⟨1, _⟩ =>
    show win7_3.index _ (1 : Fin 2) * 16 ≤ (i 1).val ∧ (i 1).val < win7_3.index _ (1 : Fin 2) * 16 + 16
    rw [e7]; omega

/-- The region's output array is the aggregation of its three input arrays as it found them: the eight row blocks tile it. -/
theorem final7 (c : Dev nD) : (dat7 (F := Ideal) V c).arrAt 3 cfg7.N = aggG7 (adjArr7 V c) (hwArr7 V c) (biasArr7 V c) :=
  (dat7 V c).arrAt_eq_of_cover 3 _ (fun t hf => flushed_eq7 V c t hf) cover_out7

end

end Cert.KernelIdeal.Hand

end
-- ==== Proof.KernelIdeal.ChainValue.lean ====
import proofs.«137875_j10720238371126_1_alg».proof.Proof.KernelIdeal.Chain
import proofs.«137875_j10720238371126_1_alg».proof.Proof.KernelIdeal.HwValue0
import proofs.«137875_j10720238371126_1_alg».proof.Proof.KernelIdeal.HwValue4
import proofs.«137875_j10720238371126_1_alg».proof.Proof.KernelIdeal.HwValue6
import proofs.«137875_j10720238371126_1_alg».proof.Proof.KernelIdeal.AggValue3
import proofs.«137875_j10720238371126_1_alg».proof.Proof.KernelIdeal.AggValue5
import proofs.«137875_j10720238371126_1_alg».proof.Proof.KernelIdeal.AggValue7
import Idealize.ShloMosaic.Lib.StableHlo.Run

noncomputable section

namespace Cert.KernelIdeal.Hand

open Idealize.ShloMosaic Idealize.ShloMosaic.TcCoe
open Cert.KernelIdeal Cert.KernelIdeal.Gen
open Idealize.ShloMosaic.ValueIdx

section Host
variable (V : Valuation τ sig (Elt Ideal))

theorem host0_v0 : StableHlo.after hostOps0 V (Proc.devRef .tc main_v0)
    = (truncf .bf16 (V (Proc.devRef .tc main_arg1) : FVec Ideal S16384x16384 .f32) bitsLt_bf16_f32 : FVec Ideal S16384x16384 .bf16) := by
  after_results <;> rfl

theorem host0_v1 : StableHlo.after hostOps0 V (Proc.devRef .tc main_v1)
    = (shapeCast S1x64 (V (Proc.devRef .tc main_arg3) : FVec Ideal S64 .f32) shapeCasts_S64_S1x64 : FVec Ideal S1x64 .f32) := by
  after_results <;> rfl

theorem host2_v6 : StableHlo.after hostOps2 V (Proc.devRef .tc main_v6)
    = (shapeCast S1x64 (shapeCast S64 (extractStridedSlice S1x64 ![0, 0] (V (Proc.devRef .tc main_arg5) : FVec Ideal S2x64 .f32) slices_S2x64_S1x64_0_0) shapeCasts_S1x64_S64) shapeCasts_S64_S1x64 : FVec Ideal S1x64 .f32) := by
  after_results <;> rfl

theorem host2_v8 : StableHlo.after hostOps2 V (Proc.devRef .tc main_v8)
    = (shapeCast S64x64 (extractStridedSlice S1x64x64 ![0, 0, 0] (V (Proc.devRef .tc main_arg4) : FVec Ideal S2x64x64 .f32) slices_S2x64x64_S1x64x64_0_0_0) shapeCasts_S1x64x64_S64x64 : FVec Ideal S64x64 .f32) := by
  after_results <;> rfl

theorem host4_v13 : StableHlo.after hostOps4 V (Proc.devRef .tc main_v13)
    = (shapeCast S1x64 (shapeCast S64 (extractStridedSlice S1x64 ![1, 0] (V (Proc.devRef .tc main_arg5) : FVec Ideal S2x64 .f32) slices_S2x64_S1x64_1_0) shapeCasts_S1x64_S64) shapeCasts_S64_S1x64 : FVec Ideal S1x64 .f32) := by
  after_results <;> rfl

theorem host4_v15 : StableHlo.after hostOps4 V (Proc.devRef .tc main_v15)
    = (shapeCast S64x64 (extractStridedSlice S1x64x64 ![1, 0, 0] (V (Proc.devRef .tc main_arg4) : FVec Ideal S2x64x64 .f32) slices_S2x64x64_S1x64x64_1_0_0) shapeCasts_S1x64x64_S64x64 : FVec Ideal S64x64 .f32) := by
  after_results <;> rfl

theorem host6_v18 : StableHlo.after hostOps6 V (Proc.devRef .tc main_v18)
    = (shapeCast S1x16 (V (Proc.devRef .tc main_arg7) : FVec Ideal S16 .f32) shapeCasts_S16_S1x16 : FVec Ideal S1x16 .f32) := by
  after_results <;> rfl

end Host

variable (m : (ℓ : Loc nD τ sig) → Buf (Elt Ideal) ℓ) (c : Dev nD)

theorem W1_of_W0 (r : Ref sig .tc) (h : r ∉ hostOps0_W) : W1 m c r = m ((c : Thread nD τ).loc r) :=
  StableHlo.after_of_writes_sub hostOps0 _ hostOps0_writes h
theorem W3_of_W1 (r : Ref sig .tc) (h2 : r ≠ main_v2) (h3 : r ≠ main_v3) : W3 m c r = W1 m c r :=
  (W3_of_ne m c r h3).trans (W2_of_ne m c r h2)
theorem W4_of_W3 (r : Ref sig .tc) (h : r ∉ hostOps2_W) : W4 m c r = W3 m c r :=
  StableHlo.after_of_writes_sub hostOps2 _ hostOps2_writes h
theorem W6_of_W4 (r : Ref sig .tc) (h5 : r ≠ main_v9) (h6 : r ≠ main_v10) : W6 m c r = W4 m c r :=
  (W6_of_ne m c r h6).trans (W5_of_ne m c r h5)
theorem W7_of_W6 (r : Ref sig .tc) (h : r ∉ hostOps4_W) : W7 m c r = W6 m c r :=
  StableHlo.after_of_writes_sub hostOps4 _ hostOps4_writes h
theorem W9_of_W7 (r : Ref sig .tc) (h8 : r ≠ main_v16) (h9 : r ≠ main_v17) : W9 m c r = W7 m c r :=
  (W9_of_ne m c r h9).trans (W8_of_ne m c r h8)
theorem W10_of_W9 (r : Ref sig .tc) (h : r ∉ hostOps6_W) : W10 m c r = W9 m c r :=
  StableHlo.after_of_writes_sub hostOps6 _ hostOps6_writes h

theorem W3_arg4 : W3 m c main_arg4 = m ((c : Thread nD τ).loc main_arg4) :=
  (W3_of_W1 m c _ (by decide) (by decide)).trans (W1_of_W0 m c _ (by decide))
theorem W3_arg5 : W3 m c main_arg5 = m ((c : Thread nD τ).loc main_arg5) :=
  (W3_of_W1 m c _ (by decide) (by decide)).trans (W1_of_W0 m c _ (by decide))
theorem W6_arg4 : W6 m c main_arg4 = m ((c : Thread nD τ).loc main_arg4) :=
  (W6_of_W4 m c _ (by decide) (by decide)).trans ((W4_of_W3 m c _ (by decide)).trans (W3_arg4 m c))
theorem W6_arg5 : W6 m c main_arg5 = m ((c : Thread nD τ).loc main_arg5) :=
  (W6_of_W4 m c _ (by decide) (by decide)).trans ((W4_of_W3 m c _ (by decide)).trans (W3_arg5 m c))
theorem W9_arg7 : W9 m c main_arg7 = m ((c : Thread nD τ).loc main_arg7) :=
  (W9_of_W7 m c _ (by decide) (by decide)).trans <| (W7_of_W6 m c _ (by decide)).trans <|
    (W6_of_W4 m c _ (by decide) (by decide)).trans <| (W4_of_W3 m c _ (by decide)).trans <|
    (W3_of_W1 m c _ (by decide) (by decide)).trans (W1_of_W0 m c _ (by decide))
theorem W10_arg6 : W10 m c main_arg6 = m ((c : Thread nD τ).loc main_arg6) :=
  (W10_of_W9 m c _ (by decide)).trans <|
    (W9_of_W7 m c _ (by decide) (by decide)).trans <| (W7_of_W6 m c _ (by decide)).trans <|
    (W6_of_W4 m c _ (by decide) (by decide)).trans <| (W4_of_W3 m c _ (by decide)).trans <|
    (W3_of_W1 m c _ (by decide) (by decide)).trans (W1_of_W0 m c _ (by decide))

def adjB : FVec Ideal S16384x16384 .bf16 :=
  truncf .bf16 (m ((c : Thread nD τ).loc main_arg1) : FVec Ideal S16384x16384 .f32) bitsLt_bf16_f32

def biasRowIn : FVec Ideal S1x64 .f32 := shapeCast S1x64 (m ((c : Thread nD τ).loc main_arg3) : FVec Ideal S64 .f32) shapeCasts_S64_S1x64

def biasVecH0 : FVec Ideal S64 .f32 :=
  shapeCast S64 (extractStridedSlice S1x64 ![0, 0] (m ((c : Thread nD τ).loc main_arg5) : FVec Ideal S2x64 .f32) slices_S2x64_S1x64_0_0) shapeCasts_S1x64_S64
def biasVecH1 : FVec Ideal S64 .f32 :=
  shapeCast S64 (extractStridedSlice S1x64 ![1, 0] (m ((c : Thread nD τ).loc main_arg5) : FVec Ideal S2x64 .f32) slices_S2x64_S1x64_1_0) shapeCasts_S1x64_S64

def weightH0 : FVec Ideal S64x64 .f32 :=
  shapeCast S64x64 (extractStridedSlice S1x64x64 ![0, 0, 0] (m ((c : Thread nD τ).loc main_arg4) : FVec Ideal S2x64x64 .f32) slices_S2x64x64_S1x64x64_0_0_0) shapeCasts_S1x64x64_S64x64
def weightH1 : FVec Ideal S64x64 .f32 :=
  shapeCast S64x64 (extractStridedSlice S1x64x64 ![1, 0, 0] (m ((c : Thread nD τ).loc main_arg4) : FVec Ideal S2x64x64 .f32) slices_S2x64x64_S1x64x64_1_0_0) shapeCasts_S1x64x64_S64x64

def biasRowOut : FVec Ideal S1x16 .f32 := shapeCast S1x16 (m ((c : Thread nD τ).loc main_arg7) : FVec Ideal S16 .f32) shapeCasts_S16_S1x16

theorem W1_v0 : W1 m c main_v0 = adjB m c := host0_v0 (W0 m c)
theorem W1_v1 : W1 m c main_v1 = biasRowIn m c := host0_v1 (W0 m c)
theorem W2_v0 : W2 m c main_v0 = adjB m c := (W2_of_ne m c _ (by decide)).trans (W1_v0 m c)
theorem W2_v1 : W2 m c main_v1 = biasRowIn m c := (W2_of_ne m c _ (by decide)).trans (W1_v1 m c)
theorem W3_v0 : W3 m c main_v0 = adjB m c := (W3_of_ne m c _ (by decide)).trans (W2_v0 m c)
theorem W4_v0 : W4 m c main_v0 = adjB m c := (W4_of_W3 m c _ (by decide)).trans (W3_v0 m c)
theorem W4_v6 : W4 m c main_v6 = shapeCast S1x64 (biasVecH0 m c) shapeCasts_S64_S1x64 :=
  (host2_v6 (W3 m c)).trans (by rw [W3_arg5 m c]; rfl)
theorem W4_v8 : W4 m c main_v8 = weightH0 m c :=
  (host2_v8 (W3 m c)).trans (by rw [W3_arg4 m c]; rfl)
theorem W4_v3 : W4 m c main_v3 = o3 m c := (W4_of_W3 m c _ (by decide)).trans (W3_self m c)
theorem W5_v0 : W5 m c main_v0 = adjB m c := (W5_of_ne m c _ (by decide)).trans (W4_v0 m c)
theorem W5_v6 : W5 m c main_v6 = shapeCast S1x64 (biasVecH0 m c) shapeCasts_S64_S1x64 := (W5_of_ne m c _ (by decide)).trans (W4_v6 m c)
theorem W6_v0 : W6 m c main_v0 = adjB m c := (W6_of_ne m c _ (by decide)).trans (W5_v0 m c)
theorem W7_v0 : W7 m c main_v0 = adjB m c := (W7_of_W6 m c _ (by decide)).trans (W6_v0 m c)
theorem W7_v13 : W7 m c main_v13 = shapeCast S1x64 (biasVecH1 m c) shapeCasts_S64_S1x64 :=
  (host4_v13 (W6 m c)).trans (by rw [W6_arg5 m c]; rfl)
theorem W7_v15 : W7 m c main_v15 = weightH1 m c :=
  (host4_v15 (W6 m c)).trans (by rw [W6_arg4 m c]; rfl)
theorem W7_v10 : W7 m c main_v10 = o6 m c := (W7_of_W6 m c _ (by decide)).trans (W6_self m c)
theorem W8_v0 : W8 m c main_v0 = adjB m c := (W8_of_ne m c _ (by decide)).trans (W7_v0 m c)
theorem W8_v13 : W8 m c main_v13 = shapeCast S1x64 (biasVecH1 m c) shapeCasts_S64_S1x64 := (W8_of_ne m c _ (by decide)).trans (W7_v13 m c)
theorem W9_v0 : W9 m c main_v0 = adjB m c := (W9_of_ne m c _ (by decide)).trans (W8_v0 m c)
theorem W10_v0 : W10 m c main_v0 = adjB m c := (W10_of_W9 m c _ (by decide)).trans (W9_v0 m c)
theorem W10_v18 : W10 m c main_v18 = biasRowOut m c :=
  (host6_v18 (W9 m c)).trans (by rw [W9_arg7 m c]; rfl)
theorem W10_v17 : W10 m c main_v17 = o9 m c := (W10_of_W9 m c _ (by decide)).trans (W9_self m c)
theorem W11_v0 : W11 m c main_v0 = adjB m c := (W11_of_ne m c _ (by decide)).trans (W10_v0 m c)
theorem W11_v18 : W11 m c main_v18 = biasRowOut m c := (W11_of_ne m c _ (by decide)).trans (W10_v18 m c)

theorem o2_eq : o2 m c = hwG0 (m ((c : Thread nD τ).loc main_arg0)) (m ((c : Thread nD τ).loc main_arg2)) := by
  refine (final0 (atTc (W1 m)) c).trans ?_
  show hwG0 (W1 m c main_arg0) (W1 m c main_arg2) = _
  rw [W1_of_W0 m c main_arg0 (by decide), W1_of_W0 m c main_arg2 (by decide)]
theorem o3_eq : o3 m c = aggG1 (adjB m c) (o2 m c) (biasRowIn m c) := by
  refine (final1 (atTc (W2 m)) c).trans ?_
  show aggG1 (W2 m c main_v0) (W2 m c main_v2) (W2 m c main_v1) = _
  rw [W2_v0, W2_self, W2_v1]
theorem o5_eq : o5 m c = hwG2 (o3 m c) (weightH0 m c) := by
  refine (final2 (atTc (W4 m)) c).trans ?_
  show hwG2 (W4 m c main_v3) (W4 m c main_v8) = _
  rw [W4_v3, W4_v8]
theorem o6_eq : o6 m c = aggG1 (adjB m c) (o5 m c) (shapeCast S1x64 (biasVecH0 m c) shapeCasts_S64_S1x64) := by
  refine (final3 (atTc (W5 m)) c).trans ?_
  show aggG1 (W5 m c main_v0) (W5 m c main_v9) (W5 m c main_v6) = _
  rw [W5_v0, W5_self, W5_v6]
theorem o8_eq : o8 m c = hwG2 (o6 m c) (weightH1 m c) := by
  refine (final4 (atTc (W7 m)) c).trans ?_
  show hwG2 (W7 m c main_v10) (W7 m c main_v15) = _
  rw [W7_v10, W7_v15]
theorem o9_eq : o9 m c = aggG1 (adjB m c) (o8 m c) (shapeCast S1x64 (biasVecH1 m c) shapeCasts_S64_S1x64) := by
  refine (final5 (atTc (W8 m)) c).trans ?_
  show aggG1 (W8 m c main_v0) (W8 m c main_v16) (W8 m c main_v13) = _
  rw [W8_v0, W8_self, W8_v13]
theorem o11_eq : o11 m c = hwG6 (o9 m c) (m ((c : Thread nD τ).loc main_arg6)) := by
  refine (final6 (atTc (W10 m)) c).trans ?_
  show hwG6 (W10 m c main_v17) (W10 m c main_arg6) = _
  rw [W10_v17, W10_arg6]
theorem o12_eq : o12 m c = aggG7 (adjB m c) (o11 m c) (biasRowOut m c) := by
  refine (final7 (atTc (W11 m)) c).trans ?_
  show aggG7 (W11 m c main_v0) (W11 m c main_v19) (W11 m c main_v18) = _
  rw [W11_v0, W11_self, W11_v18]

/-- The result array is the four layers composed, each read off the arguments. -/
theorem o12_layers : o12 m c
    = aggG7 (adjB m c)
        (hwG6
          (aggG1 (adjB m c)
            (hwG2
              (aggG1 (adjB m c)
                (hwG2
                  (aggG1 (adjB m c) (hwG0 (m ((c : Thread nD τ).loc main_arg0)) (m ((c : Thread nD τ).loc main_arg2))) (biasRowIn m c))
                  (weightH0 m c))
                (shapeCast S1x64 (biasVecH0 m c) shapeCasts_S64_S1x64))
              (weightH1 m c))
            (shapeCast S1x64 (biasVecH1 m c) shapeCasts_S64_S1x64))
          (m ((c : Thread nD τ).loc main_arg6)))
        (biasRowOut m c) := by
  rw [o12_eq, o11_eq, o9_eq, o8_eq, o6_eq, o5_eq, o3_eq, o2_eq]

end Cert.KernelIdeal.Hand

end
-- ==== Proof.LibLayer.lean ====
import proofs.«137875_j10720238371126_1_alg».proof.Proof.LibMatmulPlain
import Idealize.ShloMosaic.Lib.Pipeline.Value

noncomputable section

namespace Cert.Gcn

open Idealize.ShloMosaic Idealize.ShloMosaic.ValueIdx

variable {N Din Dout : ℕ}

/-- A vector read as a one-row matrix. -/
theorem row_of_vec {α : Type} (v : (⟨1, ![Dout]⟩ : Shape).Idx → α) (h : (⟨1, ![Dout]⟩ : Shape).ShapeCasts ⟨2, ![1, Dout]⟩) (q : Fin Dout) :
    shapeCast ⟨2, ![1, Dout]⟩ v h (ix2 (0 : Fin 1) q) = v (ix1 q) :=
  shapeCast_apply v h (ix2 (0 : Fin 1) q) (ix1 q) (by
    rw [Shape.rowMajor_val_one, Shape.rowMajor_val_two]
    show q.val = 0 * Dout + q.val
    omega)

/-- A vector broadcast to every row, read at an entry. -/
theorem bias_rows_apply {φ : FTy} (hD : Dout ≠ 1)
    (h1 : (⟨1, ![Dout]⟩ : Shape).BroadcastsInDim ⟨2, ![1, Dout]⟩ ![1])
    (h2 : (⟨2, ![1, Dout]⟩ : Shape).BroadcastsInDim ⟨2, ![N, Dout]⟩ ![0, 1])
    (b : FVec Ideal ⟨1, ![Dout]⟩ φ) (p : Fin N) (q : Fin Dout) :
    broadcastInDim ⟨2, ![N, Dout]⟩ ![0, 1] h2 (broadcastInDim ⟨2, ![1, Dout]⟩ ![1] h1 b) (ix2 p q) = b (ix1 q) := by
  refine (broadcastInDim_apply _ _ _ (ix2 p q) (ix2 (0 : Fin 1) q) fun a => ?_).trans
    (broadcastInDim_apply _ _ b (ix2 (0 : Fin 1) q) (ix1 q) fun a => ?_)
  · match a with
    | ⟨0, _⟩ => show (0 : ℕ) = if (1 : ℕ) = 1 then 0 else _; rw [if_pos rfl]
    | ⟨1, _⟩ => show q.val = if Dout = 1 then 0 else q.val; rw [if_neg hD]
  · match a with
    | ⟨0, _⟩ => show q.val = if Dout = 1 then 0 else q.val; rw [if_neg hD]

/-- Adjacency times (features times weights) plus the bias, entry by entry, is the two matrix products and the broadcast added. -/
theorem layer_eq {φA φH φW φb : FTy} (hD : Dout ≠ 1)
    (D1 : DotDims ⟨2, ![N, N]⟩ ⟨2, ![N, Dout]⟩ ⟨2, ![N, Dout]⟩) (hD1 : IsPlain D1)
    (D2 : DotDims ⟨2, ![N, Din]⟩ ⟨2, ![Din, Dout]⟩ ⟨2, ![N, Dout]⟩) (hD2 : IsPlain D2)
    (h1 : (⟨1, ![Dout]⟩ : Shape).BroadcastsInDim ⟨2, ![1, Dout]⟩ ![1])
    (h2 : (⟨2, ![1, Dout]⟩ : Shape).BroadcastsInDim ⟨2, ![N, Dout]⟩ ![0, 1])
    (A : FVec Ideal ⟨2, ![N, N]⟩ φA) (H : FVec Ideal ⟨2, ![N, Din]⟩ φH) (Wt : FVec Ideal ⟨2, ![Din, Dout]⟩ φW)
    (b1 : FVec Ideal ⟨2, ![1, Dout]⟩ φb) (b : FVec Ideal ⟨1, ![Dout]⟩ φb) (hb : ∀ q : Fin Dout, b1 (ix2 (0 : Fin 1) q) = b (ix1 q)) :
    (fun i : (⟨2, ![N, Dout]⟩ : Shape).Idx =>
        (∑ k : Fin N, A (ix2 (i 0) k) * ∑ l : Fin Din, H (ix2 k l) * Wt (ix2 l (i 1))) + b1 (ix2 (0 : Fin 1) (i 1)))
      = (addf (Host.dotGeneral D1 none A (Host.dotGeneral D2 none H Wt : FVec Ideal ⟨2, ![N, Dout]⟩ .f32) : FVec Ideal ⟨2, ![N, Dout]⟩ .f32)
          (broadcastInDim ⟨2, ![N, Dout]⟩ ![0, 1] h2 (broadcastInDim ⟨2, ![1, Dout]⟩ ![1] h1 b)) : FVec Ideal ⟨2, ![N, Dout]⟩ .f32) := by
  funext i
  obtain ⟨p, q, rfl⟩ : ∃ (p : Fin N) (q : Fin Dout), i = ix2 p q := ⟨i 0, i 1, eq_ix2 i⟩
  rw [addf_apply, dotGeneral_plain_apply D1 hD1 none A _ p q]
  congr 1
  · refine Finset.sum_congr rfl fun k _ => ?_
    exact congrArg (A (ix2 p k) * ·) (dotGeneral_plain_apply D2 hD2 none H Wt k q).symm
  · exact (hb q).trans (bias_rows_apply hD h1 h2 b p q).symm

end Cert.Gcn

end
-- ==== Proof.Layers.lean ====
import proofs.«137875_j10720238371126_1_alg».proof.Proof.KernelIdeal.HwValue0
import proofs.«137875_j10720238371126_1_alg».proof.Proof.KernelIdeal.HwValue4
import proofs.«137875_j10720238371126_1_alg».proof.Proof.KernelIdeal.HwValue6
import proofs.«137875_j10720238371126_1_alg».proof.Proof.KernelIdeal.AggValue3
import proofs.«137875_j10720238371126_1_alg».proof.Proof.KernelIdeal.AggValue5
import proofs.«137875_j10720238371126_1_alg».proof.Proof.KernelIdeal.AggValue7
import proofs.«137875_j10720238371126_1_alg».proof.Proof.Gen.ReferenceIdeal
import proofs.«137875_j10720238371126_1_alg».proof.Proof.LibLayer

noncomputable section

namespace Cert.KernelIdeal.Hand

open Idealize.ShloMosaic Idealize.ShloMosaic.TcCoe
open Cert.KernelIdeal Cert.KernelIdeal.Gen
open Idealize.ShloMosaic.ValueIdx

/-- A kernel layer is the reference's layer: its products are the plain sums and its bias the broadcast row. -/
theorem layer_in (A : FVec Ideal S16384x16384 .bf16) (H : FVec Ideal S16384x128 .f32) (Wt : FVec Ideal S128x64 .f32)
    (b1 : FVec Ideal S1x64 .f32) (b : FVec Ideal S64 .f32) (hb : ∀ q : Fin 64, b1 (ix2 (0 : Fin 1) q) = b (ix1 q)) :
    aggG1 A (hwG0 H Wt) b1
      = addf (Host.dotGeneral Cert.ReferenceIdeal.dot_S16384x16384_S16384x64_S16384x64_1_0_0_1_n_n none A
              (Host.dotGeneral Cert.ReferenceIdeal.dot_S16384x128_S128x64_S16384x64_1_0_0_1_n_n none H Wt))
          (broadcastInDim Cert.ReferenceIdeal.S16384x64 ![0, 1] Cert.ReferenceIdeal.Facts₀.bcast_S1x64_S16384x64_0_1
            (broadcastInDim Cert.ReferenceIdeal.S1x64 ![1] Cert.ReferenceIdeal.Facts₀.bcast_S64_S1x64_1 b)) :=
  Cert.Gcn.layer_eq (by decide) _ ⟨rfl, rfl, rfl, rfl, rfl, rfl⟩ _ ⟨rfl, rfl, rfl, rfl, rfl, rfl⟩ _ _ A H Wt b1 b hb

theorem layer_h0 (A : FVec Ideal S16384x16384 .bf16) (H : FVec Ideal S16384x64 .f32) (Wt : FVec Ideal S64x64 .f32)
    (b1 : FVec Ideal S1x64 .f32) (b : FVec Ideal S64 .f32) (hb : ∀ q : Fin 64, b1 (ix2 (0 : Fin 1) q) = b (ix1 q)) :
    aggG1 A (hwG2 H Wt) b1
      = addf (Host.dotGeneral Cert.ReferenceIdeal.dot_S16384x16384_S16384x64_S16384x64_1_0_0_1_n_n none A
              (Host.dotGeneral Cert.ReferenceIdeal.dot_S16384x64_S64x64_S16384x64_1_0_0_1_n_n none H Wt))
          (broadcastInDim Cert.ReferenceIdeal.S16384x64 ![0, 1] Cert.ReferenceIdeal.Facts₀.bcast_S1x64_S16384x64_0_1
            (broadcastInDim Cert.ReferenceIdeal.S1x64 ![1] Cert.ReferenceIdeal.Facts₀.bcast_S64_S1x64_1 b)) :=
  Cert.Gcn.layer_eq (by decide) _ ⟨rfl, rfl, rfl, rfl, rfl, rfl⟩ _ ⟨rfl, rfl, rfl, rfl, rfl, rfl⟩ _ _ A H Wt b1 b hb

theorem layer_out (A : FVec Ideal S16384x16384 .bf16) (H : FVec Ideal S16384x64 .f32) (Wt : FVec Ideal S64x16 .f32)
    (b1 : FVec Ideal S1x16 .f32) (b : FVec Ideal S16 .f32) (hb : ∀ q : Fin 16, b1 (ix2 (0 : Fin 1) q) = b (ix1 q)) :
    aggG7 A (hwG6 H Wt) b1
      = addf (Host.dotGeneral Cert.ReferenceIdeal.dot_S16384x16384_S16384x16_S16384x16_1_0_0_1_n_n none A
              (Host.dotGeneral Cert.ReferenceIdeal.dot_S16384x64_S64x16_S16384x16_1_0_0_1_n_n none H Wt))
          (broadcastInDim Cert.ReferenceIdeal.S16384x16 ![0, 1] Cert.ReferenceIdeal.Facts₀.bcast_S1x16_S16384x16_0_1
            (broadcastInDim Cert.ReferenceIdeal.S1x16 ![1] Cert.ReferenceIdeal.Facts₀.bcast_S16_S1x16_1 b)) :=
  Cert.Gcn.layer_eq (by decide) _ ⟨rfl, rfl, rfl, rfl, rfl, rfl⟩ _ ⟨rfl, rfl, rfl, rfl, rfl, rfl⟩ _ _ A H Wt b1 b hb

end Cert.KernelIdeal.Hand

end
-- ==== Proof.RefValue.lean ====
import proofs.«137875_j10720238371126_1_alg».proof.Proof.KernelIdeal.ChainValue
import proofs.«137875_j10720238371126_1_alg».proof.Proof.Layers
import proofs.«137875_j10720238371126_1_alg».proof.Proof.Gen.ReferenceIdeal.Run

noncomputable section

namespace Cert.KernelIdeal.Hand

open Idealize.ShloMosaic Idealize.ShloMosaic.TcCoe
open Cert.KernelIdeal Cert.KernelIdeal.Gen
open Idealize.ShloMosaic.ValueIdx

/-- The reference's result as one term of the eight arguments. -/
def refOut (x : FVec Ideal Cert.ReferenceIdeal.S16384x128 .f32) (adj : FVec Ideal Cert.ReferenceIdeal.S16384x16384 .f32) (wIn : FVec Ideal Cert.ReferenceIdeal.S128x64 .f32)
    (bIn : FVec Ideal Cert.ReferenceIdeal.S64 .f32) (wH : FVec Ideal Cert.ReferenceIdeal.S2x64x64 .f32) (bH : FVec Ideal Cert.ReferenceIdeal.S2x64 .f32)
    (wOut : FVec Ideal Cert.ReferenceIdeal.S64x16 .f32) (bOut : FVec Ideal Cert.ReferenceIdeal.S16 .f32) : FVec Ideal Cert.ReferenceIdeal.S16384x16 .f32 :=
  addf (Host.dotGeneral Cert.ReferenceIdeal.dot_S16384x16384_S16384x16_S16384x16_1_0_0_1_n_n none adj
      (Host.dotGeneral Cert.ReferenceIdeal.dot_S16384x64_S64x16_S16384x16_1_0_0_1_n_n none
        (addf (Host.dotGeneral Cert.ReferenceIdeal.dot_S16384x16384_S16384x64_S16384x64_1_0_0_1_n_n none adj
            (Host.dotGeneral Cert.ReferenceIdeal.dot_S16384x64_S64x64_S16384x64_1_0_0_1_n_n none
              (addf (Host.dotGeneral Cert.ReferenceIdeal.dot_S16384x16384_S16384x64_S16384x64_1_0_0_1_n_n none adj
                  (Host.dotGeneral Cert.ReferenceIdeal.dot_S16384x64_S64x64_S16384x64_1_0_0_1_n_n none
                    (addf (Host.dotGeneral Cert.ReferenceIdeal.dot_S16384x16384_S16384x64_S16384x64_1_0_0_1_n_n none adj
                        (Host.dotGeneral Cert.ReferenceIdeal.dot_S16384x128_S128x64_S16384x64_1_0_0_1_n_n none x wIn))
                      (broadcastInDim Cert.ReferenceIdeal.S16384x64 ![0, 1] Cert.ReferenceIdeal.Facts₀.bcast_S1x64_S16384x64_0_1 (broadcastInDim Cert.ReferenceIdeal.S1x64 ![1] Cert.ReferenceIdeal.Facts₀.bcast_S64_S1x64_1 bIn)))
                    (shapeCast _ (extractStridedSlice Cert.ReferenceIdeal.S1x64x64 ![0, 0, 0] wH Cert.ReferenceIdeal.Facts₀.slices_S2x64x64_S1x64x64_0_0_0) Cert.ReferenceIdeal.Facts₀.shapeCasts_S1x64x64_S64x64)))
                (broadcastInDim Cert.ReferenceIdeal.S16384x64 ![0, 1] Cert.ReferenceIdeal.Facts₀.bcast_S1x64_S16384x64_0_1 (broadcastInDim Cert.ReferenceIdeal.S1x64 ![1] Cert.ReferenceIdeal.Facts₀.bcast_S64_S1x64_1
                  (shapeCast _ (extractStridedSlice Cert.ReferenceIdeal.S1x64 ![0, 0] bH Cert.ReferenceIdeal.Facts₀.slices_S2x64_S1x64_0_0) Cert.ReferenceIdeal.Facts₀.shapeCasts_S1x64_S64))))
              (shapeCast _ (extractStridedSlice Cert.ReferenceIdeal.S1x64x64 ![1, 0, 0] wH Cert.ReferenceIdeal.Facts₀.slices_S2x64x64_S1x64x64_1_0_0) Cert.ReferenceIdeal.Facts₀.shapeCasts_S1x64x64_S64x64)))
          (broadcastInDim Cert.ReferenceIdeal.S16384x64 ![0, 1] Cert.ReferenceIdeal.Facts₀.bcast_S1x64_S16384x64_0_1 (broadcastInDim Cert.ReferenceIdeal.S1x64 ![1] Cert.ReferenceIdeal.Facts₀.bcast_S64_S1x64_1
            (shapeCast _ (extractStridedSlice Cert.ReferenceIdeal.S1x64 ![1, 0] bH Cert.ReferenceIdeal.Facts₀.slices_S2x64_S1x64_1_0) Cert.ReferenceIdeal.Facts₀.shapeCasts_S1x64_S64))))
        wOut))
    (broadcastInDim Cert.ReferenceIdeal.S16384x16 ![0, 1] Cert.ReferenceIdeal.Facts₀.bcast_S1x16_S16384x16_0_1 (broadcastInDim Cert.ReferenceIdeal.S1x16 ![1] Cert.ReferenceIdeal.Facts₀.bcast_S16_S1x16_1 bOut))

variable (m : (ℓ : Loc nD τ sig) → Buf (Elt Ideal) ℓ) (c : Dev nD)

/-- The kernel's result array is the reference's term of the same arguments, layer by layer. -/
theorem o12_ref : o12 m c = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [o12_layers]
  rw [layer_in (adjB m c) _ _ (biasRowIn m c) (m ((c.tc : Thread nD τ).loc main_arg3)) (fun q => by unfold biasRowIn; exact Cert.Gcn.row_of_vec _ _ q)]
  rw [layer_h0 (adjB m c) _ (weightH0 m c) _ (biasVecH0 m c) (fun q => Cert.Gcn.row_of_vec _ _ q)]
  rw [layer_h0 (adjB m c) _ (weightH1 m c) _ (biasVecH1 m c) (fun q => Cert.Gcn.row_of_vec _ _ q)]
  rw [layer_out (adjB m c) _ _ (biasRowOut m c) (m ((c.tc : Thread nD τ).loc main_arg7)) (fun q => by unfold biasRowOut; exact Cert.Gcn.row_of_vec _ _ q)]
  rfl

end Cert.KernelIdeal.Hand

end
-- ==== Proof.lean ====
/-
  Four graph-convolution layers, each adjacency · (features · weights) + bias. The kernel computes a layer as a feature
  product followed by an aggregation that accumulates, from zero, the four column-block products of each row block and
  then adds the bias row. On the extended reals a sum over all nodes is the sum of its four block sums and the zero
  start adds nothing, so each kernel layer is the reference's layer by regrouping sums: finiteness is not needed.
-/
import proofs.«137875_j10720238371126_1_alg».proof.Defs
import proofs.«137875_j10720238371126_1_alg».proof.Proof.Gen.Pre_finite_inputs
import proofs.«137875_j10720238371126_1_alg».proof.Proof.Kernel.Frame
import proofs.«137875_j10720238371126_1_alg».proof.Proof.KernelIdeal.Run
import proofs.«137875_j10720238371126_1_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  -- a run that names its result is in particular a run that keeps its arguments
  fun m ρ _ => (θ_run Cert.KernelIdeal.defs _ _).mono (fun _ h c => (h c).2) (Cert.KernelIdeal.Hand.run (F := Ideal) m ρ),
  fun m ρ _ => (θ_run Cert.ReferenceIdeal.defs _ _).mono (fun _ h c => (h c).2) (Cert.ReferenceIdeal.Value.run (F := Ideal) m ρ),
  trivial,
  fun m ρ m' ρ' _ hagree => ⟨fun c => Cert.KernelIdeal.Hand.o12 m c, Cert.KernelIdeal.Hand.run (F := Ideal) m ρ,
    (θ_run Cert.ReferenceIdeal.defs _ _).mono (fun _ h c => ⟨(h c).1.trans (by
        obtain ⟨h0, h1, h2, h3, h4, h5, h6, h7⟩ := hagree c
        refine Eq.trans ?_ (Cert.KernelIdeal.Hand.o12_ref m c).symm
        rw [h0, h1, h2, h3, h4, h5, h6, h7]
        rfl), (h c).2⟩)
      (Cert.ReferenceIdeal.Value.run (F := Ideal) m' ρ')⟩⟩

end Cert.Proof

end
